-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v187)) (v1 : (c : Dev Cert.KernelIdeal.nD) → Buf (Elt Ideal) ((c.tc : Thread Cert.KernelIdeal.nD Cert.KernelIdeal.τ).loc Cert.KernelIdeal.main_v349)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_v349) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v346) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S3x16x300x300 : Shape := ⟨4, ![3, 16, 300, 300]⟩
abbrev S3x16x300 : Shape := ⟨3, ![3, 16, 300]⟩
abbrev S3x48x300x300 : Shape := ⟨4, ![3, 48, 300, 300]⟩
abbrev S3x48x300 : Shape := ⟨3, ![3, 48, 300]⟩
abbrev S27x144 : Shape := ⟨2, ![27, 144]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S3x16x300x300 : S_.BroadcastsInDim S3x16x300x300 (![] : Fin 0 → Fin S3x16x300x300.rank)
  reducesTo_S3x16x300x300_S_d0_1_2_3 : S3x16x300x300.ReducesTo [0, 1, 2, 3] S_
  bcast_S_S3x16x300 : S_.BroadcastsInDim S3x16x300 (![] : Fin 0 → Fin S3x16x300.rank)
  reducesTo_S3x16x300_S_d0_1_2 : S3x16x300.ReducesTo [0, 1, 2] S_
  bcast_S_S3x48x300x300 : S_.BroadcastsInDim S3x48x300x300 (![] : Fin 0 → Fin S3x48x300x300.rank)
  reducesTo_S3x48x300x300_S_d0_1_2_3 : S3x48x300x300.ReducesTo [0, 1, 2, 3] S_
  bcast_S_S3x48x300 : S_.BroadcastsInDim S3x48x300 (![] : Fin 0 → Fin S3x48x300.rank)
  reducesTo_S3x48x300_S_d0_1_2 : S3x48x300.ReducesTo [0, 1, 2] S_
  bcast_S_S27x144 : S_.BroadcastsInDim S27x144 (![] : Fin 0 → Fin S27x144.rank)
  reducesTo_S27x144_S_d0_1 : S27x144.ReducesTo [0, 1] S_

variable [Facts]

def fn_part1 {F : FTy → Type} [FloatOps F] (main_arg4 : FVec F S3x48x300 .f32) (main_arg5 : FVec F S27x144 .f32) (main_v13 : IVec S_ 1) (main_v16 : IVec S3x48x300x300 1) : IVec S_ 1 :=
  let main_c_5 : IVec S_ 1 := constantI S_ 1 1#1
  let main_v17 : IVec S_ 1 := (fun x v => Host.reduce IntOp.andi x v reducesTo_S3x48x300x300_S_d0_1_2_3 h_S_) main_v16 main_c_5
  let main_v18 : IVec S_ 1 := andi main_v13 main_v17
  let main_v19 : FVec F S3x48x300 .f32 := Host.absf main_arg4
  let main_cst_6 : FVec F S_ .f32 := constant S_ .f32 0x7F800000#32
  let main_v20 : FVec F S3x48x300 .f32 := broadcastInDim S3x48x300 ![] bcast_S_S3x48x300 main_cst_6
  let main_v21 : IVec S3x48x300 1 := cmpf .olt main_v19 main_v20
  let main_c_7 : IVec S_ 1 := constantI S_ 1 1#1
  let main_v22 : IVec S_ 1 := (fun x v => Host.reduce IntOp.andi x v reducesTo_S3x48x300_S_d0_1_2 h_S_) main_v21 main_c_7
  let main_v23 : IVec S_ 1 := andi main_v18 main_v22
  let main_v24 : FVec F S27x144 .f32 := Host.absf main_arg5
  let main_cst_8 : FVec F S_ .f32 := constant S_ .f32 0x7F800000#32
  let main_v25 : FVec F S27x144 .f32 := broadcastInDim S27x144 ![] bcast_S_S27x144 main_cst_8
  let main_v26 : IVec S27x144 1 := cmpf .olt main_v24 main_v25
  let main_c_9 : IVec S_ 1 := constantI S_ 1 1#1
  let main_v27 : IVec S_ 1 := (fun x v => Host.reduce IntOp.andi x v reducesTo_S27x144_S_d0_1 h_S_) main_v26 main_c_9
  let main_v28 : IVec S_ 1 := andi main_v23 main_v27
  main_v28

def fn {F : FTy → Type} [FloatOps F] (main_arg0 : FVec F S500000x3 .f32) (main_arg1 : FVec F S3x16x300x300 .f32) (main_arg2 : FVec F S3x16x300 .f32) (main_arg3 : FVec F S3x48x300x300 .f32) (main_arg4 : FVec F S3x48x300 .f32) (main_arg5 : FVec F S27x144 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S3x16x300x300 .f32 := Host.absf main_arg1
  let main_cst_0 : FVec F S_ .f32 := constant S_ .f32 0x7F800000#32
  let main_v5 : FVec F S3x16x300x300 .f32 := broadcastInDim S3x16x300x300 ![] bcast_S_S3x16x300x300 main_cst_0
  let main_v6 : IVec S3x16x300x300 1 := cmpf .olt main_v4 main_v5
  let main_c_1 : IVec S_ 1 := constantI S_ 1 1#1
  let main_v7 : IVec S_ 1 := (fun x v => Host.reduce IntOp.andi x v reducesTo_S3x16x300x300_S_d0_1_2_3 h_S_) main_v6 main_c_1
  let main_v8 : IVec S_ 1 := andi main_v3 main_v7
  let main_v9 : FVec F S3x16x300 .f32 := Host.absf main_arg2
  let main_cst_2 : FVec F S_ .f32 := constant S_ .f32 0x7F800000#32
  let main_v10 : FVec F S3x16x300 .f32 := broadcastInDim S3x16x300 ![] bcast_S_S3x16x300 main_cst_2
  let main_v11 : IVec S3x16x300 1 := cmpf .olt main_v9 main_v10
  let main_c_3 : IVec S_ 1 := constantI S_ 1 1#1
  let main_v12 : IVec S_ 1 := (fun x v => Host.reduce IntOp.andi x v reducesTo_S3x16x300_S_d0_1_2 h_S_) main_v11 main_c_3
  let main_v13 : IVec S_ 1 := andi main_v8 main_v12
  let main_v14 : FVec F S3x48x300x300 .f32 := Host.absf main_arg3
  let main_cst_4 : FVec F S_ .f32 := constant S_ .f32 0x7F800000#32
  let main_v15 : FVec F S3x48x300x300 .f32 := broadcastInDim S3x48x300x300 ![] bcast_S_S3x48x300x300 main_cst_4
  let main_v16 : IVec S3x48x300x300 1 := cmpf .olt main_v14 main_v15
  fn_part1 (F := F) main_arg4 main_arg5 main_v13 main_v16
-- ==== Kernel.lean ====
abbrev S500000x3 : Shape := ⟨2, ![500000, 3]⟩
abbrev S3x16x300x300 : Shape := ⟨4, ![3, 16, 300, 300]⟩
abbrev S3x16x300 : Shape := ⟨3, ![3, 16, 300]⟩
abbrev S3x48x300x300 : Shape := ⟨4, ![3, 48, 300, 300]⟩
abbrev S3x48x300 : Shape := ⟨3, ![3, 48, 300]⟩
abbrev S27x144 : Shape := ⟨2, ![27, 144]⟩
abbrev S500000x1 : Shape := ⟨2, ![500000, 1]⟩
abbrev S500000 : Shape := ⟨1, ![500000]⟩
abbrev S1x500000 : Shape := ⟨2, ![1, 500000]⟩
abbrev S3x500000 : Shape := ⟨2, ![3, 500000]⟩
abbrev S_ : Shape := ⟨0, ![]⟩
abbrev S3x500000x1 : Shape := ⟨3, ![3, 500000, 1]⟩
abbrev S3x500000x2 : Shape := ⟨3, ![3, 500000, 2]⟩
abbrev S3x16x500000 : Shape := ⟨3, ![3, 16, 500000]⟩
abbrev S3x1x500000 : Shape := ⟨3, ![3, 1, 500000]⟩
abbrev S3x48x500000 : Shape := ⟨3, ![3, 48, 500000]⟩
abbrev S144x500000 : Shape := ⟨2, ![144, 500000]⟩
abbrev S144x507904 : Shape := ⟨2, ![144, 507904]⟩
abbrev S27x507904 : Shape := ⟨2, ![27, 507904]⟩
abbrev S144x16384 : Shape := ⟨2, ![144, 16384]⟩
abbrev S27x16384 : Shape := ⟨2, ![27, 16384]⟩
abbrev S27x500000 : Shape := ⟨2, ![27, 500000]⟩
abbrev S500000x27 : Shape := ⟨2, ![500000, 27]⟩

abbrev nBuf : Space → Nat
  | .hbm => 517
  | .vmem => 5
  | .smem => 0
  | _ => 0

abbrev hbmTy0_0 (i : Nat) : BufTy := match i % 128 with
  | 0 => ⟨S500000x3, .f32⟩
  | 1 => ⟨S3x16x300x300, .f32⟩
  | 2 => ⟨S3x16x300, .f32⟩
  | 3 => ⟨S3x48x300x300, .f32⟩
  | 4 => ⟨S3x48x300, .f32⟩
  | 5 => ⟨S27x144, .f32⟩
  | 6 => ⟨S500000x1, .f32⟩
  | 7 => ⟨S500000, .f32⟩
  | 8 => ⟨S500000x1, .f32⟩
  | 9 => ⟨S500000, .f32⟩
  | 10 => ⟨S500000x1, .f32⟩
  | 11 => ⟨S500000, .f32⟩
  | 12 => ⟨S1x500000, .f32⟩
  | 13 => ⟨S1x500000, .f32⟩
  | 14 => ⟨S1x500000, .f32⟩
  | 15 => ⟨S3x500000, .f32⟩
  | 16 => ⟨S500000x1, .f32⟩
  | 17 => ⟨S500000, .f32⟩
  | 18 => ⟨S500000x1, .f32⟩
  | 19 => ⟨S500000, .f32⟩
  | 20 => ⟨S500000x1, .f32⟩
  | 21 => ⟨S500000, .f32⟩
  | 22 => ⟨S1x500000, .f32⟩
  | 23 => ⟨S1x500000, .f32⟩
  | 24 => ⟨S1x500000, .f32⟩
  | 25 => ⟨S3x500000, .f32⟩
  | 26 => ⟨S500000x1, .f32⟩
  | 27 => ⟨S500000, .f32⟩
  | 28 => ⟨S500000x1, .f32⟩
  | 29 => ⟨S500000, .f32⟩
  | 30 => ⟨S500000x1, .f32⟩
  | 31 => ⟨S500000, .f32⟩
  | 32 => ⟨S1x500000, .f32⟩
  | 33 => ⟨S1x500000, .f32⟩
  | 34 => ⟨S1x500000, .f32⟩
  | 35 => ⟨S3x500000, .f32⟩
  | 36 => ⟨S_, .f32⟩
  | 37 => ⟨S3x500000, .f32⟩
  | 38 => ⟨S3x500000, .f32⟩
  | 39 => ⟨S_, .f32⟩
  | 40 => ⟨S3x500000, .f32⟩
  | 41 => ⟨S3x500000, .f32⟩
  | 42 => ⟨S_, .f32⟩
  | 43 => ⟨S3x500000, .f32⟩
  | 44 => ⟨S3x500000, .f32⟩
  | 45 => ⟨S_, .f32⟩
  | 46 => ⟨S3x500000, .f32⟩
  | 47 => ⟨S3x500000, .f32⟩
  | 48 => ⟨S_, .f32⟩
  | 49 => ⟨S3x500000, .f32⟩
  | 50 => ⟨S3x500000, .f32⟩
  | 51 => ⟨S_, .f32⟩
  | 52 => ⟨S3x500000, .f32⟩
  | 53 => ⟨S3x500000, .f32⟩
  | 54 => ⟨S3x500000, .f32⟩
  | 55 => ⟨S_, .i32⟩
  | 56 => ⟨S_, .i32⟩
  | 57 => ⟨S_, .f32⟩
  | 58 => ⟨S3x500000, .f32⟩
  | 59 => ⟨S3x500000, .f32⟩
  | 60 => ⟨S_, .f32⟩
  | 61 => ⟨S3x500000, .f32⟩
  | 62 => ⟨S3x500000, .f32⟩
  | 63 => ⟨S3x500000, .f32⟩
  | 64 => ⟨S_, .i32⟩
  | 65 => ⟨S_, .i32⟩
  | 66 => ⟨S_, .f32⟩
  | 67 => ⟨S3x500000, .f32⟩
  | 68 => ⟨S3x500000, .f32⟩
  | 69 => ⟨S_, .f32⟩
  | 70 => ⟨S3x500000, .f32⟩
  | 71 => ⟨S3x500000, .f32⟩
  | 72 => ⟨S_, .f32⟩
  | 73 => ⟨S3x500000, .f32⟩
  | 74 => ⟨S3x500000, .f32⟩
  | 75 => ⟨S_, .i32⟩
  | 76 => ⟨S_, .i32⟩
  | 77 => ⟨S_, .f32⟩
  | 78 => ⟨S3x500000, .f32⟩
  | 79 => ⟨S3x500000, .f32⟩
  | 80 => ⟨S_, .f32⟩
  | 81 => ⟨S3x500000, .f32⟩
  | 82 => ⟨S3x500000, .f32⟩
  | 83 => ⟨S_, .f32⟩
  | 84 => ⟨S3x500000, .f32⟩
  | 85 => ⟨S3x500000, .f32⟩
  | 86 => ⟨S_, .i32⟩
  | 87 => ⟨S_, .i32⟩
  | 88 => ⟨S_, .f32⟩
  | 89 => ⟨S3x500000, .f32⟩
  | 90 => ⟨S3x500000, .f32⟩
  | 91 => ⟨S_, .f32⟩
  | 92 => ⟨S3x500000, .f32⟩
  | 93 => ⟨S3x500000, .f32⟩
  | 94 => ⟨S3x500000, .f32⟩
  | 95 => ⟨S3x500000, .f32⟩
  | 96 => ⟨S3x500000, .i32⟩
  | 97 => ⟨S3x500000, .i32⟩
  | 98 => ⟨S3x500000, .i32⟩
  | 99 => ⟨S3x500000, .i32⟩
  | 100 => ⟨S_, .i32⟩
  | 101 => ⟨S3x500000, .i32⟩
  | 102 => ⟨S3x500000, .i1⟩
  | 103 => ⟨S_, .i32⟩
  | 104 => ⟨S3x500000, .i32⟩
  | 105 => ⟨S3x500000, .i32⟩
  | 106 => ⟨S3x500000, .i32⟩
  | 107 => ⟨S_, .i32⟩
  | 108 => ⟨S3x500000, .i32⟩
  | 109 => ⟨S3x500000, .i1⟩
  | 110 => ⟨S_, .i32⟩
  | 111 => ⟨S3x500000, .i32⟩
  | 112 => ⟨S3x500000, .i32⟩
  | 113 => ⟨S3x500000, .i32⟩
  | 114 => ⟨S3x500000x1, .i32⟩
  | 115 => ⟨S3x500000x1, .i32⟩
  | 116 => ⟨S3x500000x2, .i32⟩
  | 117 => ⟨S3x16x500000, .f32⟩
  | 118 => ⟨S_, .i32⟩
  | 119 => ⟨S3x500000, .i32⟩
  | 120 => ⟨S3x500000, .i1⟩
  | 121 => ⟨S_, .i32⟩
  | 122 => ⟨S3x500000, .i32⟩
  | 123 => ⟨S3x500000, .i32⟩
  | 124 => ⟨S3x500000, .i32⟩
  | 125 => ⟨S_, .i32⟩
  | 126 => ⟨S3x500000, .i32⟩
  | 127 => ⟨S3x500000, .i1⟩
  | _ => ⟨S500000x3, .f32⟩

abbrev hbmTy0_1 (i : Nat) : BufTy := match i % 128 with
  | 0 => ⟨S_, .i32⟩
  | 1 => ⟨S3x500000, .i32⟩
  | 2 => ⟨S3x500000, .i32⟩
  | 3 => ⟨S3x500000, .i32⟩
  | 4 => ⟨S3x500000x1, .i32⟩
  | 5 => ⟨S3x500000x1, .i32⟩
  | 6 => ⟨S3x500000x2, .i32⟩
  | 7 => ⟨S3x16x500000, .f32⟩
  | 8 => ⟨S_, .i32⟩
  | 9 => ⟨S3x500000, .i32⟩
  | 10 => ⟨S3x500000, .i1⟩
  | 11 => ⟨S_, .i32⟩
  | 12 => ⟨S3x500000, .i32⟩
  | 13 => ⟨S3x500000, .i32⟩
  | 14 => ⟨S3x500000, .i32⟩
  | 15 => ⟨S_, .i32⟩
  | 16 => ⟨S3x500000, .i32⟩
  | 17 => ⟨S3x500000, .i1⟩
  | 18 => ⟨S_, .i32⟩
  | 19 => ⟨S3x500000, .i32⟩
  | 20 => ⟨S3x500000, .i32⟩
  | 21 => ⟨S3x500000, .i32⟩
  | 22 => ⟨S3x500000x1, .i32⟩
  | 23 => ⟨S3x500000x1, .i32⟩
  | 24 => ⟨S3x500000x2, .i32⟩
  | 25 => ⟨S3x16x500000, .f32⟩
  | 26 => ⟨S_, .i32⟩
  | 27 => ⟨S3x500000, .i32⟩
  | 28 => ⟨S3x500000, .i1⟩
  | 29 => ⟨S_, .i32⟩
  | 30 => ⟨S3x500000, .i32⟩
  | 31 => ⟨S3x500000, .i32⟩
  | 32 => ⟨S3x500000, .i32⟩
  | 33 => ⟨S_, .i32⟩
  | 34 => ⟨S3x500000, .i32⟩
  | 35 => ⟨S3x500000, .i1⟩
  | 36 => ⟨S_, .i32⟩
  | 37 => ⟨S3x500000, .i32⟩
  | 38 => ⟨S3x500000, .i32⟩
  | 39 => ⟨S3x500000, .i32⟩
  | 40 => ⟨S3x500000x1, .i32⟩
  | 41 => ⟨S3x500000x1, .i32⟩
  | 42 => ⟨S3x500000x2, .i32⟩
  | 43 => ⟨S3x16x500000, .f32⟩
  | 44 => ⟨S_, .f32⟩
  | 45 => ⟨S3x500000, .f32⟩
  | 46 => ⟨S3x500000, .f32⟩
  | 47 => ⟨S3x1x500000, .f32⟩
  | 48 => ⟨S3x16x500000, .f32⟩
  | 49 => ⟨S3x16x500000, .f32⟩
  | 50 => ⟨S_, .f32⟩
  | 51 => ⟨S3x500000, .f32⟩
  | 52 => ⟨S3x500000, .f32⟩
  | 53 => ⟨S3x1x500000, .f32⟩
  | 54 => ⟨S3x16x500000, .f32⟩
  | 55 => ⟨S3x16x500000, .f32⟩
  | 56 => ⟨S3x1x500000, .f32⟩
  | 57 => ⟨S3x16x500000, .f32⟩
  | 58 => ⟨S3x16x500000, .f32⟩
  | 59 => ⟨S_, .f32⟩
  | 60 => ⟨S3x500000, .f32⟩
  | 61 => ⟨S3x500000, .f32⟩
  | 62 => ⟨S3x1x500000, .f32⟩
  | 63 => ⟨S3x16x500000, .f32⟩
  | 64 => ⟨S3x16x500000, .f32⟩
  | 65 => ⟨S3x16x500000, .f32⟩
  | 66 => ⟨S_, .f32⟩
  | 67 => ⟨S3x500000, .f32⟩
  | 68 => ⟨S3x500000, .f32⟩
  | 69 => ⟨S3x1x500000, .f32⟩
  | 70 => ⟨S3x16x500000, .f32⟩
  | 71 => ⟨S3x16x500000, .f32⟩
  | 72 => ⟨S3x1x500000, .f32⟩
  | 73 => ⟨S3x16x500000, .f32⟩
  | 74 => ⟨S3x16x500000, .f32⟩
  | 75 => ⟨S3x16x500000, .f32⟩
  | 76 => ⟨S3x1x500000, .f32⟩
  | 77 => ⟨S3x16x500000, .f32⟩
  | 78 => ⟨S3x16x500000, .f32⟩
  | 79 => ⟨S3x1x500000, .f32⟩
  | 80 => ⟨S3x16x500000, .f32⟩
  | 81 => ⟨S3x16x500000, .f32⟩
  | 82 => ⟨S3x16x500000, .f32⟩
  | 83 => ⟨S_, .f32⟩
  | 84 => ⟨S3x500000, .f32⟩
  | 85 => ⟨S3x500000, .f32⟩
  | 86 => ⟨S_, .f32⟩
  | 87 => ⟨S3x500000, .f32⟩
  | 88 => ⟨S3x500000, .f32⟩
  | 89 => ⟨S_, .f32⟩
  | 90 => ⟨S3x500000, .f32⟩
  | 91 => ⟨S3x500000, .f32⟩
  | 92 => ⟨S3x500000, .f32⟩
  | 93 => ⟨S_, .i32⟩
  | 94 => ⟨S_, .i32⟩
  | 95 => ⟨S_, .f32⟩
  | 96 => ⟨S3x500000, .f32⟩
  | 97 => ⟨S3x500000, .f32⟩
  | 98 => ⟨S_, .f32⟩
  | 99 => ⟨S3x500000, .f32⟩
  | 100 => ⟨S3x500000, .f32⟩
  | 101 => ⟨S_, .f32⟩
  | 102 => ⟨S3x500000, .f32⟩
  | 103 => ⟨S3x500000, .f32⟩
  | 104 => ⟨S_, .i32⟩
  | 105 => ⟨S_, .i32⟩
  | 106 => ⟨S_, .f32⟩
  | 107 => ⟨S3x500000, .f32⟩
  | 108 => ⟨S3x500000, .f32⟩
  | 109 => ⟨S_, .f32⟩
  | 110 => ⟨S3x500000, .f32⟩
  | 111 => ⟨S3x500000, .f32⟩
  | 112 => ⟨S3x500000, .f32⟩
  | 113 => ⟨S3x500000, .i32⟩
  | 114 => ⟨S_, .i32⟩
  | 115 => ⟨S3x500000, .i32⟩
  | 116 => ⟨S3x500000, .i1⟩
  | 117 => ⟨S_, .i32⟩
  | 118 => ⟨S3x500000, .i32⟩
  | 119 => ⟨S3x500000, .i32⟩
  | 120 => ⟨S3x500000, .i32⟩
  | 121 => ⟨S3x500000x1, .i32⟩
  | 122 => ⟨S3x16x500000, .f32⟩
  | 123 => ⟨S3x500000, .i32⟩
  | 124 => ⟨S_, .i32⟩
  | 125 => ⟨S3x500000, .i32⟩
  | 126 => ⟨S3x500000, .i1⟩
  | 127 => ⟨S_, .i32⟩
  | _ => ⟨S500000x3, .f32⟩

abbrev hbmTy0_2 (i : Nat) : BufTy := match i % 128 with
  | 0 => ⟨S3x500000, .i32⟩
  | 1 => ⟨S3x500000, .i32⟩
  | 2 => ⟨S3x500000, .i32⟩
  | 3 => ⟨S3x500000x1, .i32⟩
  | 4 => ⟨S3x16x500000, .f32⟩
  | 5 => ⟨S_, .f32⟩
  | 6 => ⟨S3x500000, .f32⟩
  | 7 => ⟨S3x500000, .f32⟩
  | 8 => ⟨S3x1x500000, .f32⟩
  | 9 => ⟨S3x16x500000, .f32⟩
  | 10 => ⟨S3x16x500000, .f32⟩
  | 11 => ⟨S3x1x500000, .f32⟩
  | 12 => ⟨S3x16x500000, .f32⟩
  | 13 => ⟨S3x16x500000, .f32⟩
  | 14 => ⟨S3x16x500000, .f32⟩
  | 15 => ⟨S3x16x500000, .f32⟩
  | 16 => ⟨S_, .f32⟩
  | 17 => ⟨S500000, .f32⟩
  | 18 => ⟨S_, .f32⟩
  | 19 => ⟨S3x500000, .f32⟩
  | 20 => ⟨S3x500000, .f32⟩
  | 21 => ⟨S_, .f32⟩
  | 22 => ⟨S3x500000, .f32⟩
  | 23 => ⟨S3x500000, .f32⟩
  | 24 => ⟨S_, .f32⟩
  | 25 => ⟨S3x500000, .f32⟩
  | 26 => ⟨S3x500000, .f32⟩
  | 27 => ⟨S_, .f32⟩
  | 28 => ⟨S3x500000, .f32⟩
  | 29 => ⟨S3x500000, .f32⟩
  | 30 => ⟨S_, .f32⟩
  | 31 => ⟨S3x500000, .f32⟩
  | 32 => ⟨S3x500000, .f32⟩
  | 33 => ⟨S_, .f32⟩
  | 34 => ⟨S3x500000, .f32⟩
  | 35 => ⟨S3x500000, .f32⟩
  | 36 => ⟨S3x500000, .f32⟩
  | 37 => ⟨S_, .i32⟩
  | 38 => ⟨S_, .i32⟩
  | 39 => ⟨S_, .f32⟩
  | 40 => ⟨S3x500000, .f32⟩
  | 41 => ⟨S3x500000, .f32⟩
  | 42 => ⟨S_, .f32⟩
  | 43 => ⟨S3x500000, .f32⟩
  | 44 => ⟨S3x500000, .f32⟩
  | 45 => ⟨S3x500000, .f32⟩
  | 46 => ⟨S_, .i32⟩
  | 47 => ⟨S_, .i32⟩
  | 48 => ⟨S_, .f32⟩
  | 49 => ⟨S3x500000, .f32⟩
  | 50 => ⟨S3x500000, .f32⟩
  | 51 => ⟨S_, .f32⟩
  | 52 => ⟨S3x500000, .f32⟩
  | 53 => ⟨S3x500000, .f32⟩
  | 54 => ⟨S_, .f32⟩
  | 55 => ⟨S3x500000, .f32⟩
  | 56 => ⟨S3x500000, .f32⟩
  | 57 => ⟨S_, .i32⟩
  | 58 => ⟨S_, .i32⟩
  | 59 => ⟨S_, .f32⟩
  | 60 => ⟨S3x500000, .f32⟩
  | 61 => ⟨S3x500000, .f32⟩
  | 62 => ⟨S_, .f32⟩
  | 63 => ⟨S3x500000, .f32⟩
  | 64 => ⟨S3x500000, .f32⟩
  | 65 => ⟨S_, .f32⟩
  | 66 => ⟨S3x500000, .f32⟩
  | 67 => ⟨S3x500000, .f32⟩
  | 68 => ⟨S_, .i32⟩
  | 69 => ⟨S_, .i32⟩
  | 70 => ⟨S_, .f32⟩
  | 71 => ⟨S3x500000, .f32⟩
  | 72 => ⟨S3x500000, .f32⟩
  | 73 => ⟨S_, .f32⟩
  | 74 => ⟨S3x500000, .f32⟩
  | 75 => ⟨S3x500000, .f32⟩
  | 76 => ⟨S3x500000, .f32⟩
  | 77 => ⟨S3x500000, .f32⟩
  | 78 => ⟨S3x500000, .i32⟩
  | 79 => ⟨S3x500000, .i32⟩
  | 80 => ⟨S3x500000, .i32⟩
  | 81 => ⟨S3x500000, .i32⟩
  | 82 => ⟨S_, .i32⟩
  | 83 => ⟨S3x500000, .i32⟩
  | 84 => ⟨S3x500000, .i1⟩
  | 85 => ⟨S_, .i32⟩
  | 86 => ⟨S3x500000, .i32⟩
  | 87 => ⟨S3x500000, .i32⟩
  | 88 => ⟨S3x500000, .i32⟩
  | 89 => ⟨S_, .i32⟩
  | 90 => ⟨S3x500000, .i32⟩
  | 91 => ⟨S3x500000, .i1⟩
  | 92 => ⟨S_, .i32⟩
  | 93 => ⟨S3x500000, .i32⟩
  | 94 => ⟨S3x500000, .i32⟩
  | 95 => ⟨S3x500000, .i32⟩
  | 96 => ⟨S3x500000x1, .i32⟩
  | 97 => ⟨S3x500000x1, .i32⟩
  | 98 => ⟨S3x500000x2, .i32⟩
  | 99 => ⟨S3x48x500000, .f32⟩
  | 100 => ⟨S_, .i32⟩
  | 101 => ⟨S3x500000, .i32⟩
  | 102 => ⟨S3x500000, .i1⟩
  | 103 => ⟨S_, .i32⟩
  | 104 => ⟨S3x500000, .i32⟩
  | 105 => ⟨S3x500000, .i32⟩
  | 106 => ⟨S3x500000, .i32⟩
  | 107 => ⟨S_, .i32⟩
  | 108 => ⟨S3x500000, .i32⟩
  | 109 => ⟨S3x500000, .i1⟩
  | 110 => ⟨S_, .i32⟩
  | 111 => ⟨S3x500000, .i32⟩
  | 112 => ⟨S3x500000, .i32⟩
  | 113 => ⟨S3x500000, .i32⟩
  | 114 => ⟨S3x500000x1, .i32⟩
  | 115 => ⟨S3x500000x1, .i32⟩
  | 116 => ⟨S3x500000x2, .i32⟩
  | 117 => ⟨S3x48x500000, .f32⟩
  | 118 => ⟨S_, .i32⟩
  | 119 => ⟨S3x500000, .i32⟩
  | 120 => ⟨S3x500000, .i1⟩
  | 121 => ⟨S_, .i32⟩
  | 122 => ⟨S3x500000, .i32⟩
  | 123 => ⟨S3x500000, .i32⟩
  | 124 => ⟨S3x500000, .i32⟩
  | 125 => ⟨S_, .i32⟩
  | 126 => ⟨S3x500000, .i32⟩
  | 127 => ⟨S3x500000, .i1⟩
  | _ => ⟨S500000x3, .f32⟩

abbrev hbmTy0_3 (i : Nat) : BufTy := match i % 128 with
  | 0 => ⟨S_, .i32⟩
  | 1 => ⟨S3x500000, .i32⟩
  | 2 => ⟨S3x500000, .i32⟩
  | 3 => ⟨S3x500000, .i32⟩
  | 4 => ⟨S3x500000x1, .i32⟩
  | 5 => ⟨S3x500000x1, .i32⟩
  | 6 => ⟨S3x500000x2, .i32⟩
  | 7 => ⟨S3x48x500000, .f32⟩
  | 8 => ⟨S_, .i32⟩
  | 9 => ⟨S3x500000, .i32⟩
  | 10 => ⟨S3x500000, .i1⟩
  | 11 => ⟨S_, .i32⟩
  | 12 => ⟨S3x500000, .i32⟩
  | 13 => ⟨S3x500000, .i32⟩
  | 14 => ⟨S3x500000, .i32⟩
  | 15 => ⟨S_, .i32⟩
  | 16 => ⟨S3x500000, .i32⟩
  | 17 => ⟨S3x500000, .i1⟩
  | 18 => ⟨S_, .i32⟩
  | 19 => ⟨S3x500000, .i32⟩
  | 20 => ⟨S3x500000, .i32⟩
  | 21 => ⟨S3x500000, .i32⟩
  | 22 => ⟨S3x500000x1, .i32⟩
  | 23 => ⟨S3x500000x1, .i32⟩
  | 24 => ⟨S3x500000x2, .i32⟩
  | 25 => ⟨S3x48x500000, .f32⟩
  | 26 => ⟨S_, .f32⟩
  | 27 => ⟨S3x500000, .f32⟩
  | 28 => ⟨S3x500000, .f32⟩
  | 29 => ⟨S3x1x500000, .f32⟩
  | 30 => ⟨S3x48x500000, .f32⟩
  | 31 => ⟨S3x48x500000, .f32⟩
  | 32 => ⟨S_, .f32⟩
  | 33 => ⟨S3x500000, .f32⟩
  | 34 => ⟨S3x500000, .f32⟩
  | 35 => ⟨S3x1x500000, .f32⟩
  | 36 => ⟨S3x48x500000, .f32⟩
  | 37 => ⟨S3x48x500000, .f32⟩
  | 38 => ⟨S3x1x500000, .f32⟩
  | 39 => ⟨S3x48x500000, .f32⟩
  | 40 => ⟨S3x48x500000, .f32⟩
  | 41 => ⟨S_, .f32⟩
  | 42 => ⟨S3x500000, .f32⟩
  | 43 => ⟨S3x500000, .f32⟩
  | 44 => ⟨S3x1x500000, .f32⟩
  | 45 => ⟨S3x48x500000, .f32⟩
  | 46 => ⟨S3x48x500000, .f32⟩
  | 47 => ⟨S3x48x500000, .f32⟩
  | 48 => ⟨S_, .f32⟩
  | 49 => ⟨S3x500000, .f32⟩
  | 50 => ⟨S3x500000, .f32⟩
  | 51 => ⟨S3x1x500000, .f32⟩
  | 52 => ⟨S3x48x500000, .f32⟩
  | 53 => ⟨S3x48x500000, .f32⟩
  | 54 => ⟨S3x1x500000, .f32⟩
  | 55 => ⟨S3x48x500000, .f32⟩
  | 56 => ⟨S3x48x500000, .f32⟩
  | 57 => ⟨S3x48x500000, .f32⟩
  | 58 => ⟨S3x1x500000, .f32⟩
  | 59 => ⟨S3x48x500000, .f32⟩
  | 60 => ⟨S3x48x500000, .f32⟩
  | 61 => ⟨S3x1x500000, .f32⟩
  | 62 => ⟨S3x48x500000, .f32⟩
  | 63 => ⟨S3x48x500000, .f32⟩
  | 64 => ⟨S3x48x500000, .f32⟩
  | 65 => ⟨S_, .f32⟩
  | 66 => ⟨S3x500000, .f32⟩
  | 67 => ⟨S3x500000, .f32⟩
  | 68 => ⟨S_, .f32⟩
  | 69 => ⟨S3x500000, .f32⟩
  | 70 => ⟨S3x500000, .f32⟩
  | 71 => ⟨S_, .f32⟩
  | 72 => ⟨S3x500000, .f32⟩
  | 73 => ⟨S3x500000, .f32⟩
  | 74 => ⟨S3x500000, .f32⟩
  | 75 => ⟨S_, .i32⟩
  | 76 => ⟨S_, .i32⟩
  | 77 => ⟨S_, .f32⟩
  | 78 => ⟨S3x500000, .f32⟩
  | 79 => ⟨S3x500000, .f32⟩
  | 80 => ⟨S_, .f32⟩
  | 81 => ⟨S3x500000, .f32⟩
  | 82 => ⟨S3x500000, .f32⟩
  | 83 => ⟨S_, .f32⟩
  | 84 => ⟨S3x500000, .f32⟩
  | 85 => ⟨S3x500000, .f32⟩
  | 86 => ⟨S_, .i32⟩
  | 87 => ⟨S_, .i32⟩
  | 88 => ⟨S_, .f32⟩
  | 89 => ⟨S3x500000, .f32⟩
  | 90 => ⟨S3x500000, .f32⟩
  | 91 => ⟨S_, .f32⟩
  | 92 => ⟨S3x500000, .f32⟩
  | 93 => ⟨S3x500000, .f32⟩
  | 94 => ⟨S3x500000, .f32⟩
  | 95 => ⟨S3x500000, .i32⟩
  | 96 => ⟨S_, .i32⟩
  | 97 => ⟨S3x500000, .i32⟩
  | 98 => ⟨S3x500000, .i1⟩
  | 99 => ⟨S_, .i32⟩
  | 100 => ⟨S3x500000, .i32⟩
  | 101 => ⟨S3x500000, .i32⟩
  | 102 => ⟨S3x500000, .i32⟩
  | 103 => ⟨S3x500000x1, .i32⟩
  | 104 => ⟨S3x48x500000, .f32⟩
  | 105 => ⟨S3x500000, .i32⟩
  | 106 => ⟨S_, .i32⟩
  | 107 => ⟨S3x500000, .i32⟩
  | 108 => ⟨S3x500000, .i1⟩
  | 109 => ⟨S_, .i32⟩
  | 110 => ⟨S3x500000, .i32⟩
  | 111 => ⟨S3x500000, .i32⟩
  | 112 => ⟨S3x500000, .i32⟩
  | 113 => ⟨S3x500000x1, .i32⟩
  | 114 => ⟨S3x48x500000, .f32⟩
  | 115 => ⟨S_, .f32⟩
  | 116 => ⟨S3x500000, .f32⟩
  | 117 => ⟨S3x500000, .f32⟩
  | 118 => ⟨S3x1x500000, .f32⟩
  | 119 => ⟨S3x48x500000, .f32⟩
  | 120 => ⟨S3x48x500000, .f32⟩
  | 121 => ⟨S3x1x500000, .f32⟩
  | 122 => ⟨S3x48x500000, .f32⟩
  | 123 => ⟨S3x48x500000, .f32⟩
  | 124 => ⟨S3x48x500000, .f32⟩
  | 125 => ⟨S3x48x500000, .f32⟩
  | 126 => ⟨S144x500000, .f32⟩
  | 127 => ⟨S_, .i32⟩
  | _ => ⟨S500000x3, .f32⟩

abbrev hbmTy0_4 (i : Nat) : BufTy := match i % 128 with
  | 0 => ⟨S_, .f32⟩
  | 1 => ⟨S144x507904, .f32⟩
  | 2 => ⟨S27x507904, .f32⟩
  | 3 => ⟨S27x500000, .f32⟩
  | 4 => ⟨S500000x27, .f32⟩
  | _ => ⟨S500000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S500000x3, .f32⟩

abbrev bufTy : (tb : Table) → Fin (tcTables nBuf tb) → BufTy
  | .hbm, ⟨i, _⟩ => hbmTy i
  | .local _ .vmem, ⟨0, _⟩ => ⟨S144x16384, .f32⟩
  | .local _ .vmem, ⟨1, _⟩ => ⟨S144x16384, .f32⟩
  | .local _ .vmem, ⟨2, _⟩ => ⟨S27x144, .f32⟩
  | .local _ .vmem, ⟨3, _⟩ => ⟨S27x16384, .f32⟩
  | .local _ .vmem, ⟨4, _⟩ => ⟨S27x16384, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_c_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_c_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_c_10 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_c_13 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_14 : Ref sig .tc := ⟨.hbm, 100, rfl⟩
abbrev main_v58 : Ref sig .tc := ⟨.hbm, 101, rfl⟩
abbrev main_v59 : Ref sig .tc := ⟨.hbm, 102, rfl⟩
abbrev main_c_15 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_16 : Ref sig .tc := ⟨.hbm, 107, rfl⟩
abbrev main_v63 : Ref sig .tc := ⟨.hbm, 108, rfl⟩
abbrev main_v64 : Ref sig .tc := ⟨.hbm, 109, rfl⟩
abbrev main_c_17 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_18 : Ref sig .tc := ⟨.hbm, 118, rfl⟩
abbrev main_v72 : Ref sig .tc := ⟨.hbm, 119, rfl⟩
abbrev main_v73 : Ref sig .tc := ⟨.hbm, 120, rfl⟩
abbrev main_c_19 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_20 : Ref sig .tc := ⟨.hbm, 125, rfl⟩
abbrev main_v77 : Ref sig .tc := ⟨.hbm, 126, rfl⟩
abbrev main_v78 : Ref sig .tc := ⟨.hbm, 127, rfl⟩
abbrev main_c_21 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_c_22 : Ref sig .tc := ⟨.hbm, 136, rfl⟩
abbrev main_v86 : Ref sig .tc := ⟨.hbm, 137, rfl⟩
abbrev main_v87 : Ref sig .tc := ⟨.hbm, 138, rfl⟩
abbrev main_c_23 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_c_24 : Ref sig .tc := ⟨.hbm, 143, rfl⟩
abbrev main_v91 : Ref sig .tc := ⟨.hbm, 144, rfl⟩
abbrev main_v92 : Ref sig .tc := ⟨.hbm, 145, rfl⟩
abbrev main_c_25 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_26 : Ref sig .tc := ⟨.hbm, 154, rfl⟩
abbrev main_v100 : Ref sig .tc := ⟨.hbm, 155, rfl⟩
abbrev main_v101 : Ref sig .tc := ⟨.hbm, 156, rfl⟩
abbrev main_c_27 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_c_28 : Ref sig .tc := ⟨.hbm, 161, rfl⟩
abbrev main_v105 : Ref sig .tc := ⟨.hbm, 162, rfl⟩
abbrev main_v106 : Ref sig .tc := ⟨.hbm, 163, rfl⟩
abbrev main_c_29 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_30 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_31 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_32 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_33 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_34 : Ref sig .tc := ⟨.hbm, 211, rfl⟩
abbrev main_v149 : Ref sig .tc := ⟨.hbm, 212, rfl⟩
abbrev main_v150 : Ref sig .tc := ⟨.hbm, 213, rfl⟩
abbrev main_cst_35 : Ref sig .tc := ⟨.hbm, 214, rfl⟩
abbrev main_v151 : Ref sig .tc := ⟨.hbm, 215, rfl⟩
abbrev main_v152 : Ref sig .tc := ⟨.hbm, 216, rfl⟩
abbrev main_cst_36 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_c_37 : Ref sig .tc := ⟨.hbm, 221, rfl⟩
abbrev main_c_38 : Ref sig .tc := ⟨.hbm, 222, rfl⟩
abbrev main_call4_v0 : Ref sig .tc := ⟨.hbm, 223, rfl⟩
abbrev main_call4_v1 : Ref sig .tc := ⟨.hbm, 224, rfl⟩
abbrev main_call4_v2 : Ref sig .tc := ⟨.hbm, 225, rfl⟩
abbrev main_call4_v3 : Ref sig .tc := ⟨.hbm, 226, rfl⟩
abbrev main_call4_v4 : Ref sig .tc := ⟨.hbm, 227, rfl⟩
abbrev main_v156 : Ref sig .tc := ⟨.hbm, 228, rfl⟩
abbrev main_cst_39 : Ref sig .tc := ⟨.hbm, 229, rfl⟩
abbrev main_v157 : Ref sig .tc := ⟨.hbm, 230, rfl⟩
abbrev main_v158 : Ref sig .tc := ⟨.hbm, 231, rfl⟩
abbrev main_c_40 : Ref sig .tc := ⟨.hbm, 232, rfl⟩
abbrev main_c_41 : Ref sig .tc := ⟨.hbm, 233, rfl⟩
abbrev main_call5_v0 : Ref sig .tc := ⟨.hbm, 234, rfl⟩
abbrev main_call5_v1 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_c_42 : Ref sig .tc := ⟨.hbm, 242, rfl⟩
abbrev main_v162 : Ref sig .tc := ⟨.hbm, 243, rfl⟩
abbrev main_v163 : Ref sig .tc := ⟨.hbm, 244, rfl⟩
abbrev main_c_43 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_c_44 : Ref sig .tc := ⟨.hbm, 252, rfl⟩
abbrev main_v170 : Ref sig .tc := ⟨.hbm, 253, rfl⟩
abbrev main_v171 : Ref sig .tc := ⟨.hbm, 254, rfl⟩
abbrev main_c_45 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_cst_46 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_cst_47 : Ref sig .tc := ⟨.hbm, 272, rfl⟩
abbrev main_v187 : Ref sig .tc := ⟨.hbm, 273, rfl⟩
abbrev main_cst_48 : Ref sig .tc := ⟨.hbm, 274, rfl⟩
abbrev main_v188 : Ref sig .tc := ⟨.hbm, 275, rfl⟩
abbrev main_v189 : Ref sig .tc := ⟨.hbm, 276, rfl⟩
abbrev main_cst_49 : Ref sig .tc := ⟨.hbm, 277, rfl⟩
abbrev main_v190 : Ref sig .tc := ⟨.hbm, 278, rfl⟩
abbrev main_v191 : Ref sig .tc := ⟨.hbm, 279, rfl⟩
abbrev main_cst_50 : Ref sig .tc := ⟨.hbm, 280, rfl⟩
abbrev main_v192 : Ref sig .tc := ⟨.hbm, 281, rfl⟩
abbrev main_v193 : Ref sig .tc := ⟨.hbm, 282, rfl⟩
abbrev main_cst_51 : Ref sig .tc := ⟨.hbm, 283, rfl⟩
abbrev main_v194 : Ref sig .tc := ⟨.hbm, 284, rfl⟩
abbrev main_v195 : Ref sig .tc := ⟨.hbm, 285, rfl⟩
abbrev main_cst_52 : Ref sig .tc := ⟨.hbm, 286, rfl⟩
abbrev main_v196 : Ref sig .tc := ⟨.hbm, 287, rfl⟩
abbrev main_v197 : Ref sig .tc := ⟨.hbm, 288, rfl⟩
abbrev main_cst_53 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_c_54 : Ref sig .tc := ⟨.hbm, 293, rfl⟩
abbrev main_c_55 : Ref sig .tc := ⟨.hbm, 294, rfl⟩
abbrev main_call6_v0 : Ref sig .tc := ⟨.hbm, 295, rfl⟩
abbrev main_call6_v1 : Ref sig .tc := ⟨.hbm, 296, rfl⟩
abbrev main_call6_v2 : Ref sig .tc := ⟨.hbm, 297, rfl⟩
abbrev main_call6_v3 : Ref sig .tc := ⟨.hbm, 298, rfl⟩
abbrev main_call6_v4 : Ref sig .tc := ⟨.hbm, 299, rfl⟩
abbrev main_v201 : Ref sig .tc := ⟨.hbm, 300, rfl⟩
abbrev main_v202 : Ref sig .tc := ⟨.hbm, 301, rfl⟩
abbrev main_c_56 : Ref sig .tc := ⟨.hbm, 302, rfl⟩
abbrev main_c_57 : Ref sig .tc := ⟨.hbm, 303, rfl⟩
abbrev main_call7_v0 : Ref sig .tc := ⟨.hbm, 304, rfl⟩
abbrev main_call7_v1 : Ref sig .tc := ⟨.hbm, 305, rfl⟩
abbrev main_call7_v2 : Ref sig .tc := ⟨.hbm, 306, rfl⟩
abbrev main_call7_v3 : Ref sig .tc := ⟨.hbm, 307, rfl⟩
abbrev main_call7_v4 : Ref sig .tc := ⟨.hbm, 308, rfl⟩
abbrev main_v203 : Ref sig .tc := ⟨.hbm, 309, rfl⟩
abbrev main_cst_58 : Ref sig .tc := ⟨.hbm, 310, rfl⟩
abbrev main_v204 : Ref sig .tc := ⟨.hbm, 311, rfl⟩
abbrev main_v205 : Ref sig .tc := ⟨.hbm, 312, rfl⟩
abbrev main_c_59 : Ref sig .tc := ⟨.hbm, 313, rfl⟩
abbrev main_c_60 : Ref sig .tc := ⟨.hbm, 314, rfl⟩
abbrev main_call8_v0 : Ref sig .tc := ⟨.hbm, 315, rfl⟩
abbrev main_call8_v1 : Ref sig .tc := ⟨.hbm, 316, rfl⟩
abbrev main_call8_v2 : Ref sig .tc := ⟨.hbm, 317, rfl⟩
abbrev main_call8_v3 : Ref sig .tc := ⟨.hbm, 318, rfl⟩
abbrev main_call8_v4 : Ref sig .tc := ⟨.hbm, 319, rfl⟩
abbrev main_v206 : Ref sig .tc := ⟨.hbm, 320, rfl⟩
abbrev main_cst_61 : Ref sig .tc := ⟨.hbm, 321, rfl⟩
abbrev main_v207 : Ref sig .tc := ⟨.hbm, 322, rfl⟩
abbrev main_v208 : Ref sig .tc := ⟨.hbm, 323, rfl⟩
abbrev main_c_62 : Ref sig .tc := ⟨.hbm, 324, rfl⟩
abbrev main_c_63 : Ref sig .tc := ⟨.hbm, 325, rfl⟩
abbrev main_call9_v0 : Ref sig .tc := ⟨.hbm, 326, rfl⟩
abbrev main_call9_v1 : Ref sig .tc := ⟨.hbm, 327, rfl⟩
abbrev main_call9_v2 : Ref sig .tc := ⟨.hbm, 328, rfl⟩
abbrev main_call9_v3 : Ref sig .tc := ⟨.hbm, 329, rfl⟩
abbrev main_call9_v4 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_c_64 : Ref sig .tc := ⟨.hbm, 338, rfl⟩
abbrev main_v216 : Ref sig .tc := ⟨.hbm, 339, rfl⟩
abbrev main_v217 : Ref sig .tc := ⟨.hbm, 340, rfl⟩
abbrev main_c_65 : Ref sig .tc := ⟨.hbm, 341, rfl⟩
abbrev main_v218 : Ref sig .tc := ⟨.hbm, 342, rfl⟩
abbrev main_v219 : Ref sig .tc := ⟨.hbm, 343, rfl⟩
abbrev main_v220 : Ref sig .tc := ⟨.hbm, 344, rfl⟩
abbrev main_c_66 : Ref sig .tc := ⟨.hbm, 345, rfl⟩
abbrev main_v221 : Ref sig .tc := ⟨.hbm, 346, rfl⟩
abbrev main_v222 : Ref sig .tc := ⟨.hbm, 347, rfl⟩
abbrev main_c_67 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_c_68 : Ref sig .tc := ⟨.hbm, 356, rfl⟩
abbrev main_v230 : Ref sig .tc := ⟨.hbm, 357, rfl⟩
abbrev main_v231 : Ref sig .tc := ⟨.hbm, 358, rfl⟩
abbrev main_c_69 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_c_70 : Ref sig .tc := ⟨.hbm, 363, rfl⟩
abbrev main_v235 : Ref sig .tc := ⟨.hbm, 364, rfl⟩
abbrev main_v236 : Ref sig .tc := ⟨.hbm, 365, rfl⟩
abbrev main_c_71 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_c_72 : Ref sig .tc := ⟨.hbm, 374, rfl⟩
abbrev main_v244 : Ref sig .tc := ⟨.hbm, 375, rfl⟩
abbrev main_v245 : Ref sig .tc := ⟨.hbm, 376, rfl⟩
abbrev main_c_73 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_c_74 : Ref sig .tc := ⟨.hbm, 381, rfl⟩
abbrev main_v249 : Ref sig .tc := ⟨.hbm, 382, rfl⟩
abbrev main_v250 : Ref sig .tc := ⟨.hbm, 383, rfl⟩
abbrev main_c_75 : Ref sig .tc := ⟨.hbm, 384, rfl⟩
abbrev main_v251 : Ref sig .tc := ⟨.hbm, 385, rfl⟩
abbrev main_v252 : Ref sig .tc := ⟨.hbm, 386, rfl⟩
abbrev main_v253 : Ref sig .tc := ⟨.hbm, 387, rfl⟩
abbrev main_v254 : Ref sig .tc := ⟨.hbm, 388, rfl⟩
abbrev main_v255 : Ref sig .tc := ⟨.hbm, 389, rfl⟩
abbrev main_v256 : Ref sig .tc := ⟨.hbm, 390, rfl⟩
abbrev main_v257 : Ref sig .tc := ⟨.hbm, 391, rfl⟩
abbrev main_c_76 : Ref sig .tc := ⟨.hbm, 392, rfl⟩
abbrev main_v258 : Ref sig .tc := ⟨.hbm, 393, rfl⟩
abbrev main_v259 : Ref sig .tc := ⟨.hbm, 394, rfl⟩
abbrev main_c_77 : Ref sig .tc := ⟨.hbm, 395, rfl⟩
abbrev main_v260 : Ref sig .tc := ⟨.hbm, 396, rfl⟩
abbrev main_v261 : Ref sig .tc := ⟨.hbm, 397, rfl⟩
abbrev main_v262 : Ref sig .tc := ⟨.hbm, 398, rfl⟩
abbrev main_c_78 : Ref sig .tc := ⟨.hbm, 399, rfl⟩
abbrev main_v263 : Ref sig .tc := ⟨.hbm, 400, rfl⟩
abbrev main_v264 : Ref sig .tc := ⟨.hbm, 401, rfl⟩
abbrev main_c_79 : Ref sig .tc := ⟨.hbm, 402, rfl⟩
abbrev main_v265 : Ref sig .tc := ⟨.hbm, 403, rfl⟩
abbrev main_v266 : Ref sig .tc := ⟨.hbm, 404, rfl⟩
abbrev main_v267 : Ref sig .tc := ⟨.hbm, 405, rfl⟩
abbrev main_v268 : Ref sig .tc := ⟨.hbm, 406, rfl⟩
abbrev main_v269 : Ref sig .tc := ⟨.hbm, 407, rfl⟩
abbrev main_v270 : Ref sig .tc := ⟨.hbm, 408, rfl⟩
abbrev main_v271 : Ref sig .tc := ⟨.hbm, 409, rfl⟩
abbrev main_cst_80 : Ref sig .tc := ⟨.hbm, 410, rfl⟩
abbrev main_v272 : Ref sig .tc := ⟨.hbm, 411, rfl⟩
abbrev main_v273 : Ref sig .tc := ⟨.hbm, 412, rfl⟩
abbrev main_v274 : Ref sig .tc := ⟨.hbm, 413, rfl⟩
abbrev main_v275 : Ref sig .tc := ⟨.hbm, 414, rfl⟩
abbrev main_v276 : Ref sig .tc := ⟨.hbm, 415, rfl⟩
abbrev main_cst_81 : Ref sig .tc := ⟨.hbm, 416, rfl⟩
abbrev main_v277 : Ref sig .tc := ⟨.hbm, 417, rfl⟩
abbrev main_v278 : Ref sig .tc := ⟨.hbm, 418, rfl⟩
abbrev main_v279 : Ref sig .tc := ⟨.hbm, 419, rfl⟩
abbrev main_v280 : Ref sig .tc := ⟨.hbm, 420, rfl⟩
abbrev main_v281 : Ref sig .tc := ⟨.hbm, 421, rfl⟩
abbrev main_v282 : Ref sig .tc := ⟨.hbm, 422, rfl⟩
abbrev main_v283 : Ref sig .tc := ⟨.hbm, 423, rfl⟩
abbrev main_v284 : Ref sig .tc := ⟨.hbm, 424, rfl⟩
abbrev main_cst_82 : Ref sig .tc := ⟨.hbm, 425, rfl⟩
abbrev main_v285 : Ref sig .tc := ⟨.hbm, 426, rfl⟩
abbrev main_v286 : Ref sig .tc := ⟨.hbm, 427, rfl⟩
abbrev main_v287 : Ref sig .tc := ⟨.hbm, 428, rfl⟩
abbrev main_v288 : Ref sig .tc := ⟨.hbm, 429, rfl⟩
abbrev main_v289 : Ref sig .tc := ⟨.hbm, 430, rfl⟩
abbrev main_v290 : Ref sig .tc := ⟨.hbm, 431, rfl⟩
abbrev main_cst_83 : Ref sig .tc := ⟨.hbm, 432, rfl⟩
abbrev main_v291 : Ref sig .tc := ⟨.hbm, 433, rfl⟩
abbrev main_v292 : Ref sig .tc := ⟨.hbm, 434, rfl⟩
abbrev main_v293 : Ref sig .tc := ⟨.hbm, 435, rfl⟩
abbrev main_v294 : Ref sig .tc := ⟨.hbm, 436, rfl⟩
abbrev main_v295 : Ref sig .tc := ⟨.hbm, 437, rfl⟩
abbrev main_v296 : Ref sig .tc := ⟨.hbm, 438, rfl⟩
abbrev main_v297 : Ref sig .tc := ⟨.hbm, 439, rfl⟩
abbrev main_v298 : Ref sig .tc := ⟨.hbm, 440, rfl⟩
abbrev main_v299 : Ref sig .tc := ⟨.hbm, 441, rfl⟩
abbrev main_v300 : Ref sig .tc := ⟨.hbm, 442, rfl⟩
abbrev main_v301 : Ref sig .tc := ⟨.hbm, 443, rfl⟩
abbrev main_v302 : Ref sig .tc := ⟨.hbm, 444, rfl⟩
abbrev main_v303 : Ref sig .tc := ⟨.hbm, 445, rfl⟩
abbrev main_v304 : Ref sig .tc := ⟨.hbm, 446, rfl⟩
abbrev main_v305 : Ref sig .tc := ⟨.hbm, 447, rfl⟩
abbrev main_v306 : Ref sig .tc := ⟨.hbm, 448, rfl⟩
abbrev main_cst_84 : Ref sig .tc := ⟨.hbm, 449, rfl⟩
abbrev main_v307 : Ref sig .tc := ⟨.hbm, 450, rfl⟩
abbrev main_v308 : Ref sig .tc := ⟨.hbm, 451, rfl⟩
abbrev main_cst_85 : Ref sig .tc := ⟨.hbm, 452, rfl⟩
abbrev main_v309 : Ref sig .tc := ⟨.hbm, 453, rfl⟩
abbrev main_v310 : Ref sig .tc := ⟨.hbm, 454, rfl⟩
abbrev main_cst_86 : Ref sig .tc := ⟨.hbm, 455, rfl⟩
abbrev main_v311 : Ref sig .tc := ⟨.hbm, 456, rfl⟩
abbrev main_v312 : Ref sig .tc := ⟨.hbm, 457, rfl⟩
abbrev main_v313 : Ref sig .tc := ⟨.hbm, 458, rfl⟩
abbrev main_c_87 : Ref sig .tc := ⟨.hbm, 459, rfl⟩
abbrev main_c_88 : Ref sig .tc := ⟨.hbm, 460, rfl⟩
abbrev main_call10_v0 : Ref sig .tc := ⟨.hbm, 461, rfl⟩
abbrev main_call10_v1 : Ref sig .tc := ⟨.hbm, 462, rfl⟩
abbrev main_call10_v2 : Ref sig .tc := ⟨.hbm, 463, rfl⟩
abbrev main_call10_v3 : Ref sig .tc := ⟨.hbm, 464, rfl⟩
abbrev main_call10_v4 : Ref sig .tc := ⟨.hbm, 465, rfl⟩
abbrev main_v314 : Ref sig .tc := ⟨.hbm, 466, rfl⟩
abbrev main_cst_89 : Ref sig .tc := ⟨.hbm, 467, rfl⟩
abbrev main_v315 : Ref sig .tc := ⟨.hbm, 468, rfl⟩
abbrev main_v316 : Ref sig .tc := ⟨.hbm, 469, rfl⟩
abbrev main_c_90 : Ref sig .tc := ⟨.hbm, 470, rfl⟩
abbrev main_c_91 : Ref sig .tc := ⟨.hbm, 471, rfl⟩
abbrev main_call11_v0 : Ref sig .tc := ⟨.hbm, 472, rfl⟩
abbrev main_call11_v1 : Ref sig .tc := ⟨.hbm, 473, rfl⟩
abbrev main_call11_v2 : Ref sig .tc := ⟨.hbm, 474, rfl⟩
abbrev main_call11_v3 : Ref sig .tc := ⟨.hbm, 475, rfl⟩
abbrev main_call11_v4 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_c_92 : Ref sig .tc := ⟨.hbm, 480, rfl⟩
abbrev main_v320 : Ref sig .tc := ⟨.hbm, 481, rfl⟩
abbrev main_v321 : Ref sig .tc := ⟨.hbm, 482, rfl⟩
abbrev main_c_93 : Ref sig .tc := ⟨.hbm, 483, rfl⟩
abbrev main_v322 : Ref sig .tc := ⟨.hbm, 484, rfl⟩
abbrev main_v323 : Ref sig .tc := ⟨.hbm, 485, rfl⟩
abbrev main_v324 : Ref sig .tc := ⟨.hbm, 486, rfl⟩
abbrev main_v325 : Ref sig .tc := ⟨.hbm, 487, rfl⟩
abbrev main_v326 : Ref sig .tc := ⟨.hbm, 488, rfl⟩
abbrev main_v327 : Ref sig .tc := ⟨.hbm, 489, rfl⟩
abbrev main_c_94 : Ref sig .tc := ⟨.hbm, 490, rfl⟩
abbrev main_v328 : Ref sig .tc := ⟨.hbm, 491, rfl⟩
abbrev main_v329 : Ref sig .tc := ⟨.hbm, 492, rfl⟩
abbrev main_c_95 : Ref sig .tc := ⟨.hbm, 493, rfl⟩
abbrev main_v330 : Ref sig .tc := ⟨.hbm, 494, rfl⟩
abbrev main_v331 : Ref sig .tc := ⟨.hbm, 495, rfl⟩
abbrev main_v332 : Ref sig .tc := ⟨.hbm, 496, rfl⟩
abbrev main_v333 : Ref sig .tc := ⟨.hbm, 497, rfl⟩
abbrev main_v334 : Ref sig .tc := ⟨.hbm, 498, rfl⟩
abbrev main_cst_96 : Ref sig .tc := ⟨.hbm, 499, rfl⟩
abbrev main_v335 : Ref sig .tc := ⟨.hbm, 500, rfl⟩
abbrev main_v336 : Ref sig .tc := ⟨.hbm, 501, rfl⟩
abbrev main_v337 : Ref sig .tc := ⟨.hbm, 502, rfl⟩
abbrev main_v338 : Ref sig .tc := ⟨.hbm, 503, rfl⟩
abbrev main_v339 : Ref sig .tc := ⟨.hbm, 504, rfl⟩
abbrev main_v340 : Ref sig .tc := ⟨.hbm, 505, rfl⟩
abbrev main_v341 : Ref sig .tc := ⟨.hbm, 506, rfl⟩
abbrev main_v342 : Ref sig .tc := ⟨.hbm, 507, rfl⟩
abbrev main_v343 : Ref sig .tc := ⟨.hbm, 508, rfl⟩
abbrev main_v344 : Ref sig .tc := ⟨.hbm, 509, rfl⟩
abbrev main_v345 : Ref sig .tc := ⟨.hbm, 510, rfl⟩
abbrev main_c_97 : Ref sig .tc := ⟨.hbm, 511, rfl⟩
abbrev main_call12_v0 : Ref sig .tc := ⟨.hbm, 512, rfl⟩
abbrev main_v346 : Ref sig .tc := ⟨.hbm, 513, rfl⟩
abbrev main_v347 : Ref sig .tc := ⟨.hbm, 514, rfl⟩
abbrev main_v348 : Ref sig .tc := ⟨.hbm, 515, rfl⟩
abbrev main_v349 : Ref sig .tc := ⟨.hbm, 516, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S144x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S27x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  bcast_S500000_S1x500000_1 : S500000.BroadcastsInDim S1x500000 (![1] : Fin 1 → Fin S1x500000.rank)
  concatenates_S1x500000_S1x500000_S1x500000_S3x500000_d0 : Shape.Concatenates [S1x500000, S1x500000, S1x500000] S3x500000 0
  slices_S500000x3_S500000x1_0_2 : S500000x3.Slices ![0, 2] S500000x1
  bcast_S_S3x500000 : S_.BroadcastsInDim S3x500000 (![] : Fin 0 → Fin S3x500000.rank)
  bcast_S3x500000_S3x500000x1_0_1 : S3x500000.BroadcastsInDim S3x500000x1 (![0, 1] : Fin 2 → Fin S3x500000x1.rank)
  concatenates_S3x500000x1_S3x500000x1_S3x500000x2_d2 : Shape.Concatenates [S3x500000x1, S3x500000x1] S3x500000x2 2
  bcast_S3x500000_S3x1x500000_0_2 : S3x500000.BroadcastsInDim S3x1x500000 (![0, 2] : Fin 2 → Fin S3x1x500000.rank)
  bcast_S3x1x500000_S3x16x500000_0_1_2 : S3x1x500000.BroadcastsInDim S3x16x500000 (![0, 1, 2] : Fin 3 → Fin S3x16x500000.rank)
  reducesTo_S3x16x500000_S500000_d0_1 : S3x16x500000.ReducesTo [0, 1] S500000
  h_S_ : 0 < S_.numel
  bcast_S3x1x500000_S3x48x500000_0_1_2 : S3x1x500000.BroadcastsInDim S3x48x500000 (![0, 1, 2] : Fin 3 → Fin S3x48x500000.rank)
  shapeCasts_S3x48x500000_S144x500000 : S3x48x500000.ShapeCasts S144x500000
  pads_S144x500000_S144x507904_000_079040 : S144x500000.Pads (![0, 0] : Fin 2 → Nat) ![0, 7904] ![0, 0] S144x507904
  inb_S27x144_S27x144_0_0 : ∀ a, (![0, 0] : Fin 2 → Nat) a + S27x144.size a ≤ S27x144.size a
  h_S27x144 : 0 < S27x144.numel
  inb_S144x16384_S144x16384_0_0 : ∀ a, (![0, 0] : Fin 2 → Nat) a + S144x16384.size a ≤ S144x16384.size a
  h_S144x16384 : 0 < S144x16384.numel
  shapeCasts_S144x16384_S144x16384 : S144x16384.ShapeCasts S144x16384
  inb_S27x16384_S27x16384_0_0 : ∀ a, (![0, 0] : Fin 2 → Nat) a + S27x16384.size a ≤ S27x16384.size a
  h_S27x16384 : 0 < S27x16384.numel
  slices_S27x507904_S27x500000_0_0 : S27x507904.Slices ![0, 0] S27x500000
  transposes_S27x500000_S500000x27_1_0 : S27x500000.Transposes [1, 0] S500000x27
  gather_S3x16x300x300_S3x500000x2_S3x16x500000_1_23_0_0_23_2_11611_wf : GatherDims.WF S3x16x300x300 S3x500000x2 S3x16x500000 [1] [2, 3] [0] [2, 3] [0] 2 ![1, 16, 1, 1]
  gather_S3x16x300_S3x500000x1_S3x16x500000_1_2_0_0_2_2_1161_wf : GatherDims.WF S3x16x300 S3x500000x1 S3x16x500000 [1] [2] [0] [2] [0] 2 ![1, 16, 1]
  gather_S3x48x300x300_S3x500000x2_S3x48x500000_1_23_0_0_23_2_14811_wf : GatherDims.WF S3x48x300x300 S3x500000x2 S3x48x500000 [1] [2, 3] [0] [2, 3] [0] 2 ![1, 48, 1, 1]
  gather_S3x48x300_S3x500000x1_S3x48x500000_1_2_0_0_2_2_1481_wf : GatherDims.WF S3x48x300 S3x500000x1 S3x48x500000 [1] [2] [0] [2] [0] 2 ![1, 48, 1]
  dot_S27x144_S144x16384_S27x16384_1_0_0_1_n_n_wf : DotDims.WF S27x144 S144x16384 S27x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S144x16384.size a ≤ S144x507904.size a
  hwx0_0 : ∀ i : grid0.Coords, EltTy.bits .f32 = 32 ∨ (Rect.block (s := S144x507904) S144x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x144.size a ≤ S27x144.size a
  hwx0_1 : ∀ i : grid0.Coords, EltTy.bits .f32 = 32 ∨ (Rect.block (s := S27x144) S27x144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S27x16384.size a ≤ S27x507904.size a
  hwx0_2 : ∀ i : grid0.Coords, EltTy.bits .f32 = 32 ∨ (Rect.block (s := S27x507904) S27x16384.size (cc0_transform_2 i) (hinb0_2 i)).WholeWords (EltTy.packing .f32)

variable [Facts₀]

def gather_S3x16x300x300_S3x500000x2_S3x16x500000_1_23_0_0_23_2_11611 : GatherDims S3x16x300x300 S3x500000x2 S3x16x500000 where
  offsetDims := [1]
  collapsedSliceDims := [2, 3]
  operandBatchingDims := [0]
  startIndicesBatchingDims := [0]
  startIndexMap := [2, 3]
  indexVectorDim := 2
  sliceSizes := ![1, 16, 1, 1]
  wf := gather_S3x16x300x300_S3x500000x2_S3x16x500000_1_23_0_0_23_2_11611_wf
def gather_S3x16x300_S3x500000x1_S3x16x500000_1_2_0_0_2_2_1161 : GatherDims S3x16x300 S3x500000x1 S3x16x500000 where
  offsetDims := [1]
  collapsedSliceDims := [2]
  operandBatchingDims := [0]
  startIndicesBatchingDims := [0]
  startIndexMap := [2]
  indexVectorDim := 2
  sliceSizes := ![1, 16, 1]
  wf := gather_S3x16x300_S3x500000x1_S3x16x500000_1_2_0_0_2_2_1161_wf
def gather_S3x48x300x300_S3x500000x2_S3x48x500000_1_23_0_0_23_2_14811 : GatherDims S3x48x300x300 S3x500000x2 S3x48x500000 where
  offsetDims := [1]
  collapsedSliceDims := [2, 3]
  operandBatchingDims := [0]
  startIndicesBatchingDims := [0]
  startIndexMap := [2, 3]
  indexVectorDim := 2
  sliceSizes := ![1, 48, 1, 1]
  wf := gather_S3x48x300x300_S3x500000x2_S3x48x500000_1_23_0_0_23_2_14811_wf
def gather_S3x48x300_S3x500000x1_S3x48x500000_1_2_0_0_2_2_1481 : GatherDims S3x48x300 S3x500000x1 S3x48x500000 where
  offsetDims := [1]
  collapsedSliceDims := [2]
  operandBatchingDims := [0]
  startIndicesBatchingDims := [0]
  startIndexMap := [2]
  indexVectorDim := 2
  sliceSizes := ![1, 48, 1]
  wf := gather_S3x48x300_S3x500000x1_S3x48x500000_1_2_0_0_2_2_1481_wf
def dot_S27x144_S144x16384_S27x16384_1_0_0_1_n_n : DotDims S27x144 S144x16384 S27x16384 where
  lhsContracting := [1]
  rhsContracting := [0]
  lhsNonContracting := [0]
  rhsNonContracting := [1]
  lhsBatch := []
  rhsBatch := []
  wf := dot_S27x144_S144x16384_S27x16384_1_0_0_1_n_n_wf

abbrev win0_0 : Pipeline.Window sig grid0 :=
  Pipeline.Window.ofSpec (Memref.whole main_v346) S144x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S27x144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v347) S27x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x3 : Shape := ⟨2, ![500000, 3]⟩
abbrev S3x16x300x300 : Shape := ⟨4, ![3, 16, 300, 300]⟩
abbrev S3x16x300 : Shape := ⟨3, ![3, 16, 300]⟩
abbrev S3x48x300x300 : Shape := ⟨4, ![3, 48, 300, 300]⟩
abbrev S3x48x300 : Shape := ⟨3, ![3, 48, 300]⟩
abbrev S27x144 : Shape := ⟨2, ![27, 144]⟩
abbrev S500000x1 : Shape := ⟨2, ![500000, 1]⟩
abbrev S500000 : Shape := ⟨1, ![500000]⟩
abbrev S1x500000 : Shape := ⟨2, ![1, 500000]⟩
abbrev S3x500000 : Shape := ⟨2, ![3, 500000]⟩
abbrev S_ : Shape := ⟨0, ![]⟩
abbrev S3x500000x1 : Shape := ⟨3, ![3, 500000, 1]⟩
abbrev S3x500000x2 : Shape := ⟨3, ![3, 500000, 2]⟩
abbrev S3x16x500000 : Shape := ⟨3, ![3, 16, 500000]⟩
abbrev S3x1x500000 : Shape := ⟨3, ![3, 1, 500000]⟩
abbrev S3x48x500000 : Shape := ⟨3, ![3, 48, 500000]⟩
abbrev S144x500000 : Shape := ⟨2, ![144, 500000]⟩
abbrev S500000x27 : Shape := ⟨2, ![500000, 27]⟩

abbrev nBuf : Space → Nat
  | .hbm => 512
  | .vmem => 0
  | .smem => 0
  | _ => 0

abbrev hbmTy0_0 (i : Nat) : BufTy := match i % 128 with
  | 0 => ⟨S500000x3, .f32⟩
  | 1 => ⟨S3x16x300x300, .f32⟩
  | 2 => ⟨S3x16x300, .f32⟩
  | 3 => ⟨S3x48x300x300, .f32⟩
  | 4 => ⟨S3x48x300, .f32⟩
  | 5 => ⟨S27x144, .f32⟩
  | 6 => ⟨S500000x1, .f32⟩
  | 7 => ⟨S500000, .f32⟩
  | 8 => ⟨S500000x1, .f32⟩
  | 9 => ⟨S500000, .f32⟩
  | 10 => ⟨S500000x1, .f32⟩
  | 11 => ⟨S500000, .f32⟩
  | 12 => ⟨S1x500000, .f32⟩
  | 13 => ⟨S1x500000, .f32⟩
  | 14 => ⟨S1x500000, .f32⟩
  | 15 => ⟨S3x500000, .f32⟩
  | 16 => ⟨S500000x1, .f32⟩
  | 17 => ⟨S500000, .f32⟩
  | 18 => ⟨S500000x1, .f32⟩
  | 19 => ⟨S500000, .f32⟩
  | 20 => ⟨S500000x1, .f32⟩
  | 21 => ⟨S500000, .f32⟩
  | 22 => ⟨S1x500000, .f32⟩
  | 23 => ⟨S1x500000, .f32⟩
  | 24 => ⟨S1x500000, .f32⟩
  | 25 => ⟨S3x500000, .f32⟩
  | 26 => ⟨S500000x1, .f32⟩
  | 27 => ⟨S500000, .f32⟩
  | 28 => ⟨S500000x1, .f32⟩
  | 29 => ⟨S500000, .f32⟩
  | 30 => ⟨S500000x1, .f32⟩
  | 31 => ⟨S500000, .f32⟩
  | 32 => ⟨S1x500000, .f32⟩
  | 33 => ⟨S1x500000, .f32⟩
  | 34 => ⟨S1x500000, .f32⟩
  | 35 => ⟨S3x500000, .f32⟩
  | 36 => ⟨S_, .f32⟩
  | 37 => ⟨S3x500000, .f32⟩
  | 38 => ⟨S3x500000, .f32⟩
  | 39 => ⟨S_, .f32⟩
  | 40 => ⟨S3x500000, .f32⟩
  | 41 => ⟨S3x500000, .f32⟩
  | 42 => ⟨S_, .f32⟩
  | 43 => ⟨S3x500000, .f32⟩
  | 44 => ⟨S3x500000, .f32⟩
  | 45 => ⟨S_, .f32⟩
  | 46 => ⟨S3x500000, .f32⟩
  | 47 => ⟨S3x500000, .f32⟩
  | 48 => ⟨S_, .f32⟩
  | 49 => ⟨S3x500000, .f32⟩
  | 50 => ⟨S3x500000, .f32⟩
  | 51 => ⟨S_, .f32⟩
  | 52 => ⟨S3x500000, .f32⟩
  | 53 => ⟨S3x500000, .f32⟩
  | 54 => ⟨S3x500000, .f32⟩
  | 55 => ⟨S_, .i32⟩
  | 56 => ⟨S_, .i32⟩
  | 57 => ⟨S_, .f32⟩
  | 58 => ⟨S3x500000, .f32⟩
  | 59 => ⟨S3x500000, .f32⟩
  | 60 => ⟨S_, .f32⟩
  | 61 => ⟨S3x500000, .f32⟩
  | 62 => ⟨S3x500000, .f32⟩
  | 63 => ⟨S3x500000, .f32⟩
  | 64 => ⟨S_, .i32⟩
  | 65 => ⟨S_, .i32⟩
  | 66 => ⟨S_, .f32⟩
  | 67 => ⟨S3x500000, .f32⟩
  | 68 => ⟨S3x500000, .f32⟩
  | 69 => ⟨S_, .f32⟩
  | 70 => ⟨S3x500000, .f32⟩
  | 71 => ⟨S3x500000, .f32⟩
  | 72 => ⟨S_, .f32⟩
  | 73 => ⟨S3x500000, .f32⟩
  | 74 => ⟨S3x500000, .f32⟩
  | 75 => ⟨S_, .i32⟩
  | 76 => ⟨S_, .i32⟩
  | 77 => ⟨S_, .f32⟩
  | 78 => ⟨S3x500000, .f32⟩
  | 79 => ⟨S3x500000, .f32⟩
  | 80 => ⟨S_, .f32⟩
  | 81 => ⟨S3x500000, .f32⟩
  | 82 => ⟨S3x500000, .f32⟩
  | 83 => ⟨S_, .f32⟩
  | 84 => ⟨S3x500000, .f32⟩
  | 85 => ⟨S3x500000, .f32⟩
  | 86 => ⟨S_, .i32⟩
  | 87 => ⟨S_, .i32⟩
  | 88 => ⟨S_, .f32⟩
  | 89 => ⟨S3x500000, .f32⟩
  | 90 => ⟨S3x500000, .f32⟩
  | 91 => ⟨S_, .f32⟩
  | 92 => ⟨S3x500000, .f32⟩
  | 93 => ⟨S3x500000, .f32⟩
  | 94 => ⟨S3x500000, .f32⟩
  | 95 => ⟨S3x500000, .f32⟩
  | 96 => ⟨S3x500000, .i32⟩
  | 97 => ⟨S3x500000, .i32⟩
  | 98 => ⟨S3x500000, .i32⟩
  | 99 => ⟨S3x500000, .i32⟩
  | 100 => ⟨S_, .i32⟩
  | 101 => ⟨S3x500000, .i32⟩
  | 102 => ⟨S3x500000, .i1⟩
  | 103 => ⟨S_, .i32⟩
  | 104 => ⟨S3x500000, .i32⟩
  | 105 => ⟨S3x500000, .i32⟩
  | 106 => ⟨S3x500000, .i32⟩
  | 107 => ⟨S_, .i32⟩
  | 108 => ⟨S3x500000, .i32⟩
  | 109 => ⟨S3x500000, .i1⟩
  | 110 => ⟨S_, .i32⟩
  | 111 => ⟨S3x500000, .i32⟩
  | 112 => ⟨S3x500000, .i32⟩
  | 113 => ⟨S3x500000, .i32⟩
  | 114 => ⟨S3x500000x1, .i32⟩
  | 115 => ⟨S3x500000x1, .i32⟩
  | 116 => ⟨S3x500000x2, .i32⟩
  | 117 => ⟨S3x16x500000, .f32⟩
  | 118 => ⟨S_, .i32⟩
  | 119 => ⟨S3x500000, .i32⟩
  | 120 => ⟨S3x500000, .i1⟩
  | 121 => ⟨S_, .i32⟩
  | 122 => ⟨S3x500000, .i32⟩
  | 123 => ⟨S3x500000, .i32⟩
  | 124 => ⟨S3x500000, .i32⟩
  | 125 => ⟨S_, .i32⟩
  | 126 => ⟨S3x500000, .i32⟩
  | 127 => ⟨S3x500000, .i1⟩
  | _ => ⟨S500000x3, .f32⟩

abbrev hbmTy0_1 (i : Nat) : BufTy := match i % 128 with
  | 0 => ⟨S_, .i32⟩
  | 1 => ⟨S3x500000, .i32⟩
  | 2 => ⟨S3x500000, .i32⟩
  | 3 => ⟨S3x500000, .i32⟩
  | 4 => ⟨S3x500000x1, .i32⟩
  | 5 => ⟨S3x500000x1, .i32⟩
  | 6 => ⟨S3x500000x2, .i32⟩
  | 7 => ⟨S3x16x500000, .f32⟩
  | 8 => ⟨S_, .i32⟩
  | 9 => ⟨S3x500000, .i32⟩
  | 10 => ⟨S3x500000, .i1⟩
  | 11 => ⟨S_, .i32⟩
  | 12 => ⟨S3x500000, .i32⟩
  | 13 => ⟨S3x500000, .i32⟩
  | 14 => ⟨S3x500000, .i32⟩
  | 15 => ⟨S_, .i32⟩
  | 16 => ⟨S3x500000, .i32⟩
  | 17 => ⟨S3x500000, .i1⟩
  | 18 => ⟨S_, .i32⟩
  | 19 => ⟨S3x500000, .i32⟩
  | 20 => ⟨S3x500000, .i32⟩
  | 21 => ⟨S3x500000, .i32⟩
  | 22 => ⟨S3x500000x1, .i32⟩
  | 23 => ⟨S3x500000x1, .i32⟩
  | 24 => ⟨S3x500000x2, .i32⟩
  | 25 => ⟨S3x16x500000, .f32⟩
  | 26 => ⟨S_, .i32⟩
  | 27 => ⟨S3x500000, .i32⟩
  | 28 => ⟨S3x500000, .i1⟩
  | 29 => ⟨S_, .i32⟩
  | 30 => ⟨S3x500000, .i32⟩
  | 31 => ⟨S3x500000, .i32⟩
  | 32 => ⟨S3x500000, .i32⟩
  | 33 => ⟨S_, .i32⟩
  | 34 => ⟨S3x500000, .i32⟩
  | 35 => ⟨S3x500000, .i1⟩
  | 36 => ⟨S_, .i32⟩
  | 37 => ⟨S3x500000, .i32⟩
  | 38 => ⟨S3x500000, .i32⟩
  | 39 => ⟨S3x500000, .i32⟩
  | 40 => ⟨S3x500000x1, .i32⟩
  | 41 => ⟨S3x500000x1, .i32⟩
  | 42 => ⟨S3x500000x2, .i32⟩
  | 43 => ⟨S3x16x500000, .f32⟩
  | 44 => ⟨S_, .f32⟩
  | 45 => ⟨S3x500000, .f32⟩
  | 46 => ⟨S3x500000, .f32⟩
  | 47 => ⟨S3x1x500000, .f32⟩
  | 48 => ⟨S3x16x500000, .f32⟩
  | 49 => ⟨S3x16x500000, .f32⟩
  | 50 => ⟨S_, .f32⟩
  | 51 => ⟨S3x500000, .f32⟩
  | 52 => ⟨S3x500000, .f32⟩
  | 53 => ⟨S3x1x500000, .f32⟩
  | 54 => ⟨S3x16x500000, .f32⟩
  | 55 => ⟨S3x16x500000, .f32⟩
  | 56 => ⟨S3x1x500000, .f32⟩
  | 57 => ⟨S3x16x500000, .f32⟩
  | 58 => ⟨S3x16x500000, .f32⟩
  | 59 => ⟨S_, .f32⟩
  | 60 => ⟨S3x500000, .f32⟩
  | 61 => ⟨S3x500000, .f32⟩
  | 62 => ⟨S3x1x500000, .f32⟩
  | 63 => ⟨S3x16x500000, .f32⟩
  | 64 => ⟨S3x16x500000, .f32⟩
  | 65 => ⟨S3x16x500000, .f32⟩
  | 66 => ⟨S_, .f32⟩
  | 67 => ⟨S3x500000, .f32⟩
  | 68 => ⟨S3x500000, .f32⟩
  | 69 => ⟨S3x1x500000, .f32⟩
  | 70 => ⟨S3x16x500000, .f32⟩
  | 71 => ⟨S3x16x500000, .f32⟩
  | 72 => ⟨S3x1x500000, .f32⟩
  | 73 => ⟨S3x16x500000, .f32⟩
  | 74 => ⟨S3x16x500000, .f32⟩
  | 75 => ⟨S3x16x500000, .f32⟩
  | 76 => ⟨S3x1x500000, .f32⟩
  | 77 => ⟨S3x16x500000, .f32⟩
  | 78 => ⟨S3x16x500000, .f32⟩
  | 79 => ⟨S3x1x500000, .f32⟩
  | 80 => ⟨S3x16x500000, .f32⟩
  | 81 => ⟨S3x16x500000, .f32⟩
  | 82 => ⟨S3x16x500000, .f32⟩
  | 83 => ⟨S_, .f32⟩
  | 84 => ⟨S3x500000, .f32⟩
  | 85 => ⟨S3x500000, .f32⟩
  | 86 => ⟨S_, .f32⟩
  | 87 => ⟨S3x500000, .f32⟩
  | 88 => ⟨S3x500000, .f32⟩
  | 89 => ⟨S_, .f32⟩
  | 90 => ⟨S3x500000, .f32⟩
  | 91 => ⟨S3x500000, .f32⟩
  | 92 => ⟨S3x500000, .f32⟩
  | 93 => ⟨S_, .i32⟩
  | 94 => ⟨S_, .i32⟩
  | 95 => ⟨S_, .f32⟩
  | 96 => ⟨S3x500000, .f32⟩
  | 97 => ⟨S3x500000, .f32⟩
  | 98 => ⟨S_, .f32⟩
  | 99 => ⟨S3x500000, .f32⟩
  | 100 => ⟨S3x500000, .f32⟩
  | 101 => ⟨S_, .f32⟩
  | 102 => ⟨S3x500000, .f32⟩
  | 103 => ⟨S3x500000, .f32⟩
  | 104 => ⟨S_, .i32⟩
  | 105 => ⟨S_, .i32⟩
  | 106 => ⟨S_, .f32⟩
  | 107 => ⟨S3x500000, .f32⟩
  | 108 => ⟨S3x500000, .f32⟩
  | 109 => ⟨S_, .f32⟩
  | 110 => ⟨S3x500000, .f32⟩
  | 111 => ⟨S3x500000, .f32⟩
  | 112 => ⟨S3x500000, .f32⟩
  | 113 => ⟨S3x500000, .i32⟩
  | 114 => ⟨S_, .i32⟩
  | 115 => ⟨S3x500000, .i32⟩
  | 116 => ⟨S3x500000, .i1⟩
  | 117 => ⟨S_, .i32⟩
  | 118 => ⟨S3x500000, .i32⟩
  | 119 => ⟨S3x500000, .i32⟩
  | 120 => ⟨S3x500000, .i32⟩
  | 121 => ⟨S3x500000x1, .i32⟩
  | 122 => ⟨S3x16x500000, .f32⟩
  | 123 => ⟨S3x500000, .i32⟩
  | 124 => ⟨S_, .i32⟩
  | 125 => ⟨S3x500000, .i32⟩
  | 126 => ⟨S3x500000, .i1⟩
  | 127 => ⟨S_, .i32⟩
  | _ => ⟨S500000x3, .f32⟩

abbrev hbmTy0_2 (i : Nat) : BufTy := match i % 128 with
  | 0 => ⟨S3x500000, .i32⟩
  | 1 => ⟨S3x500000, .i32⟩
  | 2 => ⟨S3x500000, .i32⟩
  | 3 => ⟨S3x500000x1, .i32⟩
  | 4 => ⟨S3x16x500000, .f32⟩
  | 5 => ⟨S_, .f32⟩
  | 6 => ⟨S3x500000, .f32⟩
  | 7 => ⟨S3x500000, .f32⟩
  | 8 => ⟨S3x1x500000, .f32⟩
  | 9 => ⟨S3x16x500000, .f32⟩
  | 10 => ⟨S3x16x500000, .f32⟩
  | 11 => ⟨S3x1x500000, .f32⟩
  | 12 => ⟨S3x16x500000, .f32⟩
  | 13 => ⟨S3x16x500000, .f32⟩
  | 14 => ⟨S3x16x500000, .f32⟩
  | 15 => ⟨S3x16x500000, .f32⟩
  | 16 => ⟨S_, .f32⟩
  | 17 => ⟨S500000, .f32⟩
  | 18 => ⟨S_, .f32⟩
  | 19 => ⟨S3x500000, .f32⟩
  | 20 => ⟨S3x500000, .f32⟩
  | 21 => ⟨S_, .f32⟩
  | 22 => ⟨S3x500000, .f32⟩
  | 23 => ⟨S3x500000, .f32⟩
  | 24 => ⟨S_, .f32⟩
  | 25 => ⟨S3x500000, .f32⟩
  | 26 => ⟨S3x500000, .f32⟩
  | 27 => ⟨S_, .f32⟩
  | 28 => ⟨S3x500000, .f32⟩
  | 29 => ⟨S3x500000, .f32⟩
  | 30 => ⟨S_, .f32⟩
  | 31 => ⟨S3x500000, .f32⟩
  | 32 => ⟨S3x500000, .f32⟩
  | 33 => ⟨S_, .f32⟩
  | 34 => ⟨S3x500000, .f32⟩
  | 35 => ⟨S3x500000, .f32⟩
  | 36 => ⟨S3x500000, .f32⟩
  | 37 => ⟨S_, .i32⟩
  | 38 => ⟨S_, .i32⟩
  | 39 => ⟨S_, .f32⟩
  | 40 => ⟨S3x500000, .f32⟩
  | 41 => ⟨S3x500000, .f32⟩
  | 42 => ⟨S_, .f32⟩
  | 43 => ⟨S3x500000, .f32⟩
  | 44 => ⟨S3x500000, .f32⟩
  | 45 => ⟨S3x500000, .f32⟩
  | 46 => ⟨S_, .i32⟩
  | 47 => ⟨S_, .i32⟩
  | 48 => ⟨S_, .f32⟩
  | 49 => ⟨S3x500000, .f32⟩
  | 50 => ⟨S3x500000, .f32⟩
  | 51 => ⟨S_, .f32⟩
  | 52 => ⟨S3x500000, .f32⟩
  | 53 => ⟨S3x500000, .f32⟩
  | 54 => ⟨S_, .f32⟩
  | 55 => ⟨S3x500000, .f32⟩
  | 56 => ⟨S3x500000, .f32⟩
  | 57 => ⟨S_, .i32⟩
  | 58 => ⟨S_, .i32⟩
  | 59 => ⟨S_, .f32⟩
  | 60 => ⟨S3x500000, .f32⟩
  | 61 => ⟨S3x500000, .f32⟩
  | 62 => ⟨S_, .f32⟩
  | 63 => ⟨S3x500000, .f32⟩
  | 64 => ⟨S3x500000, .f32⟩
  | 65 => ⟨S_, .f32⟩
  | 66 => ⟨S3x500000, .f32⟩
  | 67 => ⟨S3x500000, .f32⟩
  | 68 => ⟨S_, .i32⟩
  | 69 => ⟨S_, .i32⟩
  | 70 => ⟨S_, .f32⟩
  | 71 => ⟨S3x500000, .f32⟩
  | 72 => ⟨S3x500000, .f32⟩
  | 73 => ⟨S_, .f32⟩
  | 74 => ⟨S3x500000, .f32⟩
  | 75 => ⟨S3x500000, .f32⟩
  | 76 => ⟨S3x500000, .f32⟩
  | 77 => ⟨S3x500000, .f32⟩
  | 78 => ⟨S3x500000, .i32⟩
  | 79 => ⟨S3x500000, .i32⟩
  | 80 => ⟨S3x500000, .i32⟩
  | 81 => ⟨S3x500000, .i32⟩
  | 82 => ⟨S_, .i32⟩
  | 83 => ⟨S3x500000, .i32⟩
  | 84 => ⟨S3x500000, .i1⟩
  | 85 => ⟨S_, .i32⟩
  | 86 => ⟨S3x500000, .i32⟩
  | 87 => ⟨S3x500000, .i32⟩
  | 88 => ⟨S3x500000, .i32⟩
  | 89 => ⟨S_, .i32⟩
  | 90 => ⟨S3x500000, .i32⟩
  | 91 => ⟨S3x500000, .i1⟩
  | 92 => ⟨S_, .i32⟩
  | 93 => ⟨S3x500000, .i32⟩
  | 94 => ⟨S3x500000, .i32⟩
  | 95 => ⟨S3x500000, .i32⟩
  | 96 => ⟨S3x500000x1, .i32⟩
  | 97 => ⟨S3x500000x1, .i32⟩
  | 98 => ⟨S3x500000x2, .i32⟩
  | 99 => ⟨S3x48x500000, .f32⟩
  | 100 => ⟨S_, .i32⟩
  | 101 => ⟨S3x500000, .i32⟩
  | 102 => ⟨S3x500000, .i1⟩
  | 103 => ⟨S_, .i32⟩
  | 104 => ⟨S3x500000, .i32⟩
  | 105 => ⟨S3x500000, .i32⟩
  | 106 => ⟨S3x500000, .i32⟩
  | 107 => ⟨S_, .i32⟩
  | 108 => ⟨S3x500000, .i32⟩
  | 109 => ⟨S3x500000, .i1⟩
  | 110 => ⟨S_, .i32⟩
  | 111 => ⟨S3x500000, .i32⟩
  | 112 => ⟨S3x500000, .i32⟩
  | 113 => ⟨S3x500000, .i32⟩
  | 114 => ⟨S3x500000x1, .i32⟩
  | 115 => ⟨S3x500000x1, .i32⟩
  | 116 => ⟨S3x500000x2, .i32⟩
  | 117 => ⟨S3x48x500000, .f32⟩
  | 118 => ⟨S_, .i32⟩
  | 119 => ⟨S3x500000, .i32⟩
  | 120 => ⟨S3x500000, .i1⟩
  | 121 => ⟨S_, .i32⟩
  | 122 => ⟨S3x500000, .i32⟩
  | 123 => ⟨S3x500000, .i32⟩
  | 124 => ⟨S3x500000, .i32⟩
  | 125 => ⟨S_, .i32⟩
  | 126 => ⟨S3x500000, .i32⟩
  | 127 => ⟨S3x500000, .i1⟩
  | _ => ⟨S500000x3, .f32⟩

abbrev hbmTy0_3 (i : Nat) : BufTy := match i % 128 with
  | 0 => ⟨S_, .i32⟩
  | 1 => ⟨S3x500000, .i32⟩
  | 2 => ⟨S3x500000, .i32⟩
  | 3 => ⟨S3x500000, .i32⟩
  | 4 => ⟨S3x500000x1, .i32⟩
  | 5 => ⟨S3x500000x1, .i32⟩
  | 6 => ⟨S3x500000x2, .i32⟩
  | 7 => ⟨S3x48x500000, .f32⟩
  | 8 => ⟨S_, .i32⟩
  | 9 => ⟨S3x500000, .i32⟩
  | 10 => ⟨S3x500000, .i1⟩
  | 11 => ⟨S_, .i32⟩
  | 12 => ⟨S3x500000, .i32⟩
  | 13 => ⟨S3x500000, .i32⟩
  | 14 => ⟨S3x500000, .i32⟩
  | 15 => ⟨S_, .i32⟩
  | 16 => ⟨S3x500000, .i32⟩
  | 17 => ⟨S3x500000, .i1⟩
  | 18 => ⟨S_, .i32⟩
  | 19 => ⟨S3x500000, .i32⟩
  | 20 => ⟨S3x500000, .i32⟩
  | 21 => ⟨S3x500000, .i32⟩
  | 22 => ⟨S3x500000x1, .i32⟩
  | 23 => ⟨S3x500000x1, .i32⟩
  | 24 => ⟨S3x500000x2, .i32⟩
  | 25 => ⟨S3x48x500000, .f32⟩
  | 26 => ⟨S_, .f32⟩
  | 27 => ⟨S3x500000, .f32⟩
  | 28 => ⟨S3x500000, .f32⟩
  | 29 => ⟨S3x1x500000, .f32⟩
  | 30 => ⟨S3x48x500000, .f32⟩
  | 31 => ⟨S3x48x500000, .f32⟩
  | 32 => ⟨S_, .f32⟩
  | 33 => ⟨S3x500000, .f32⟩
  | 34 => ⟨S3x500000, .f32⟩
  | 35 => ⟨S3x1x500000, .f32⟩
  | 36 => ⟨S3x48x500000, .f32⟩
  | 37 => ⟨S3x48x500000, .f32⟩
  | 38 => ⟨S3x1x500000, .f32⟩
  | 39 => ⟨S3x48x500000, .f32⟩
  | 40 => ⟨S3x48x500000, .f32⟩
  | 41 => ⟨S_, .f32⟩
  | 42 => ⟨S3x500000, .f32⟩
  | 43 => ⟨S3x500000, .f32⟩
  | 44 => ⟨S3x1x500000, .f32⟩
  | 45 => ⟨S3x48x500000, .f32⟩
  | 46 => ⟨S3x48x500000, .f32⟩
  | 47 => ⟨S3x48x500000, .f32⟩
  | 48 => ⟨S_, .f32⟩
  | 49 => ⟨S3x500000, .f32⟩
  | 50 => ⟨S3x500000, .f32⟩
  | 51 => ⟨S3x1x500000, .f32⟩
  | 52 => ⟨S3x48x500000, .f32⟩
  | 53 => ⟨S3x48x500000, .f32⟩
  | 54 => ⟨S3x1x500000, .f32⟩
  | 55 => ⟨S3x48x500000, .f32⟩
  | 56 => ⟨S3x48x500000, .f32⟩
  | 57 => ⟨S3x48x500000, .f32⟩
  | 58 => ⟨S3x1x500000, .f32⟩
  | 59 => ⟨S3x48x500000, .f32⟩
  | 60 => ⟨S3x48x500000, .f32⟩
  | 61 => ⟨S3x1x500000, .f32⟩
  | 62 => ⟨S3x48x500000, .f32⟩
  | 63 => ⟨S3x48x500000, .f32⟩
  | 64 => ⟨S3x48x500000, .f32⟩
  | 65 => ⟨S_, .f32⟩
  | 66 => ⟨S3x500000, .f32⟩
  | 67 => ⟨S3x500000, .f32⟩
  | 68 => ⟨S_, .f32⟩
  | 69 => ⟨S3x500000, .f32⟩
  | 70 => ⟨S3x500000, .f32⟩
  | 71 => ⟨S_, .f32⟩
  | 72 => ⟨S3x500000, .f32⟩
  | 73 => ⟨S3x500000, .f32⟩
  | 74 => ⟨S3x500000, .f32⟩
  | 75 => ⟨S_, .i32⟩
  | 76 => ⟨S_, .i32⟩
  | 77 => ⟨S_, .f32⟩
  | 78 => ⟨S3x500000, .f32⟩
  | 79 => ⟨S3x500000, .f32⟩
  | 80 => ⟨S_, .f32⟩
  | 81 => ⟨S3x500000, .f32⟩
  | 82 => ⟨S3x500000, .f32⟩
  | 83 => ⟨S_, .f32⟩
  | 84 => ⟨S3x500000, .f32⟩
  | 85 => ⟨S3x500000, .f32⟩
  | 86 => ⟨S_, .i32⟩
  | 87 => ⟨S_, .i32⟩
  | 88 => ⟨S_, .f32⟩
  | 89 => ⟨S3x500000, .f32⟩
  | 90 => ⟨S3x500000, .f32⟩
  | 91 => ⟨S_, .f32⟩
  | 92 => ⟨S3x500000, .f32⟩
  | 93 => ⟨S3x500000, .f32⟩
  | 94 => ⟨S3x500000, .f32⟩
  | 95 => ⟨S3x500000, .i32⟩
  | 96 => ⟨S_, .i32⟩
  | 97 => ⟨S3x500000, .i32⟩
  | 98 => ⟨S3x500000, .i1⟩
  | 99 => ⟨S_, .i32⟩
  | 100 => ⟨S3x500000, .i32⟩
  | 101 => ⟨S3x500000, .i32⟩
  | 102 => ⟨S3x500000, .i32⟩
  | 103 => ⟨S3x500000x1, .i32⟩
  | 104 => ⟨S3x48x500000, .f32⟩
  | 105 => ⟨S3x500000, .i32⟩
  | 106 => ⟨S_, .i32⟩
  | 107 => ⟨S3x500000, .i32⟩
  | 108 => ⟨S3x500000, .i1⟩
  | 109 => ⟨S_, .i32⟩
  | 110 => ⟨S3x500000, .i32⟩
  | 111 => ⟨S3x500000, .i32⟩
  | 112 => ⟨S3x500000, .i32⟩
  | 113 => ⟨S3x500000x1, .i32⟩
  | 114 => ⟨S3x48x500000, .f32⟩
  | 115 => ⟨S_, .f32⟩
  | 116 => ⟨S3x500000, .f32⟩
  | 117 => ⟨S3x500000, .f32⟩
  | 118 => ⟨S3x1x500000, .f32⟩
  | 119 => ⟨S3x48x500000, .f32⟩
  | 120 => ⟨S3x48x500000, .f32⟩
  | 121 => ⟨S3x1x500000, .f32⟩
  | 122 => ⟨S3x48x500000, .f32⟩
  | 123 => ⟨S3x48x500000, .f32⟩
  | 124 => ⟨S3x48x500000, .f32⟩
  | 125 => ⟨S3x48x500000, .f32⟩
  | 126 => ⟨S144x500000, .f32⟩
  | 127 => ⟨S500000x27, .f32⟩
  | _ => ⟨S500000x3, .f32⟩

abbrev hbmTy (i : Nat) : BufTy := match i / 128 with
  | 0 => hbmTy0_0 i
  | 1 => hbmTy0_1 i
  | 2 => hbmTy0_2 i
  | 3 => hbmTy0_3 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_c_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_c_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_c_10 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_c_13 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_14 : Ref sig .tc := ⟨.hbm, 100, rfl⟩
abbrev main_v58 : Ref sig .tc := ⟨.hbm, 101, rfl⟩
abbrev main_v59 : Ref sig .tc := ⟨.hbm, 102, rfl⟩
abbrev main_c_15 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_16 : Ref sig .tc := ⟨.hbm, 107, rfl⟩
abbrev main_v63 : Ref sig .tc := ⟨.hbm, 108, rfl⟩
abbrev main_v64 : Ref sig .tc := ⟨.hbm, 109, rfl⟩
abbrev main_c_17 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_18 : Ref sig .tc := ⟨.hbm, 118, rfl⟩
abbrev main_v72 : Ref sig .tc := ⟨.hbm, 119, rfl⟩
abbrev main_v73 : Ref sig .tc := ⟨.hbm, 120, rfl⟩
abbrev main_c_19 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_20 : Ref sig .tc := ⟨.hbm, 125, rfl⟩
abbrev main_v77 : Ref sig .tc := ⟨.hbm, 126, rfl⟩
abbrev main_v78 : Ref sig .tc := ⟨.hbm, 127, rfl⟩
abbrev main_c_21 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_c_22 : Ref sig .tc := ⟨.hbm, 136, rfl⟩
abbrev main_v86 : Ref sig .tc := ⟨.hbm, 137, rfl⟩
abbrev main_v87 : Ref sig .tc := ⟨.hbm, 138, rfl⟩
abbrev main_c_23 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_c_24 : Ref sig .tc := ⟨.hbm, 143, rfl⟩
abbrev main_v91 : Ref sig .tc := ⟨.hbm, 144, rfl⟩
abbrev main_v92 : Ref sig .tc := ⟨.hbm, 145, rfl⟩
abbrev main_c_25 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_26 : Ref sig .tc := ⟨.hbm, 154, rfl⟩
abbrev main_v100 : Ref sig .tc := ⟨.hbm, 155, rfl⟩
abbrev main_v101 : Ref sig .tc := ⟨.hbm, 156, rfl⟩
abbrev main_c_27 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_c_28 : Ref sig .tc := ⟨.hbm, 161, rfl⟩
abbrev main_v105 : Ref sig .tc := ⟨.hbm, 162, rfl⟩
abbrev main_v106 : Ref sig .tc := ⟨.hbm, 163, rfl⟩
abbrev main_c_29 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_30 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_31 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_32 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_33 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_34 : Ref sig .tc := ⟨.hbm, 211, rfl⟩
abbrev main_v149 : Ref sig .tc := ⟨.hbm, 212, rfl⟩
abbrev main_v150 : Ref sig .tc := ⟨.hbm, 213, rfl⟩
abbrev main_cst_35 : Ref sig .tc := ⟨.hbm, 214, rfl⟩
abbrev main_v151 : Ref sig .tc := ⟨.hbm, 215, rfl⟩
abbrev main_v152 : Ref sig .tc := ⟨.hbm, 216, rfl⟩
abbrev main_cst_36 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_c_37 : Ref sig .tc := ⟨.hbm, 221, rfl⟩
abbrev main_c_38 : Ref sig .tc := ⟨.hbm, 222, rfl⟩
abbrev main_call4_v0 : Ref sig .tc := ⟨.hbm, 223, rfl⟩
abbrev main_call4_v1 : Ref sig .tc := ⟨.hbm, 224, rfl⟩
abbrev main_call4_v2 : Ref sig .tc := ⟨.hbm, 225, rfl⟩
abbrev main_call4_v3 : Ref sig .tc := ⟨.hbm, 226, rfl⟩
abbrev main_call4_v4 : Ref sig .tc := ⟨.hbm, 227, rfl⟩
abbrev main_v156 : Ref sig .tc := ⟨.hbm, 228, rfl⟩
abbrev main_cst_39 : Ref sig .tc := ⟨.hbm, 229, rfl⟩
abbrev main_v157 : Ref sig .tc := ⟨.hbm, 230, rfl⟩
abbrev main_v158 : Ref sig .tc := ⟨.hbm, 231, rfl⟩
abbrev main_c_40 : Ref sig .tc := ⟨.hbm, 232, rfl⟩
abbrev main_c_41 : Ref sig .tc := ⟨.hbm, 233, rfl⟩
abbrev main_call5_v0 : Ref sig .tc := ⟨.hbm, 234, rfl⟩
abbrev main_call5_v1 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_c_42 : Ref sig .tc := ⟨.hbm, 242, rfl⟩
abbrev main_v162 : Ref sig .tc := ⟨.hbm, 243, rfl⟩
abbrev main_v163 : Ref sig .tc := ⟨.hbm, 244, rfl⟩
abbrev main_c_43 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_c_44 : Ref sig .tc := ⟨.hbm, 252, rfl⟩
abbrev main_v170 : Ref sig .tc := ⟨.hbm, 253, rfl⟩
abbrev main_v171 : Ref sig .tc := ⟨.hbm, 254, rfl⟩
abbrev main_c_45 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_cst_46 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_cst_47 : Ref sig .tc := ⟨.hbm, 272, rfl⟩
abbrev main_v187 : Ref sig .tc := ⟨.hbm, 273, rfl⟩
abbrev main_cst_48 : Ref sig .tc := ⟨.hbm, 274, rfl⟩
abbrev main_v188 : Ref sig .tc := ⟨.hbm, 275, rfl⟩
abbrev main_v189 : Ref sig .tc := ⟨.hbm, 276, rfl⟩
abbrev main_cst_49 : Ref sig .tc := ⟨.hbm, 277, rfl⟩
abbrev main_v190 : Ref sig .tc := ⟨.hbm, 278, rfl⟩
abbrev main_v191 : Ref sig .tc := ⟨.hbm, 279, rfl⟩
abbrev main_cst_50 : Ref sig .tc := ⟨.hbm, 280, rfl⟩
abbrev main_v192 : Ref sig .tc := ⟨.hbm, 281, rfl⟩
abbrev main_v193 : Ref sig .tc := ⟨.hbm, 282, rfl⟩
abbrev main_cst_51 : Ref sig .tc := ⟨.hbm, 283, rfl⟩
abbrev main_v194 : Ref sig .tc := ⟨.hbm, 284, rfl⟩
abbrev main_v195 : Ref sig .tc := ⟨.hbm, 285, rfl⟩
abbrev main_cst_52 : Ref sig .tc := ⟨.hbm, 286, rfl⟩
abbrev main_v196 : Ref sig .tc := ⟨.hbm, 287, rfl⟩
abbrev main_v197 : Ref sig .tc := ⟨.hbm, 288, rfl⟩
abbrev main_cst_53 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_c_54 : Ref sig .tc := ⟨.hbm, 293, rfl⟩
abbrev main_c_55 : Ref sig .tc := ⟨.hbm, 294, rfl⟩
abbrev main_call6_v0 : Ref sig .tc := ⟨.hbm, 295, rfl⟩
abbrev main_call6_v1 : Ref sig .tc := ⟨.hbm, 296, rfl⟩
abbrev main_call6_v2 : Ref sig .tc := ⟨.hbm, 297, rfl⟩
abbrev main_call6_v3 : Ref sig .tc := ⟨.hbm, 298, rfl⟩
abbrev main_call6_v4 : Ref sig .tc := ⟨.hbm, 299, rfl⟩
abbrev main_v201 : Ref sig .tc := ⟨.hbm, 300, rfl⟩
abbrev main_v202 : Ref sig .tc := ⟨.hbm, 301, rfl⟩
abbrev main_c_56 : Ref sig .tc := ⟨.hbm, 302, rfl⟩
abbrev main_c_57 : Ref sig .tc := ⟨.hbm, 303, rfl⟩
abbrev main_call7_v0 : Ref sig .tc := ⟨.hbm, 304, rfl⟩
abbrev main_call7_v1 : Ref sig .tc := ⟨.hbm, 305, rfl⟩
abbrev main_call7_v2 : Ref sig .tc := ⟨.hbm, 306, rfl⟩
abbrev main_call7_v3 : Ref sig .tc := ⟨.hbm, 307, rfl⟩
abbrev main_call7_v4 : Ref sig .tc := ⟨.hbm, 308, rfl⟩
abbrev main_v203 : Ref sig .tc := ⟨.hbm, 309, rfl⟩
abbrev main_cst_58 : Ref sig .tc := ⟨.hbm, 310, rfl⟩
abbrev main_v204 : Ref sig .tc := ⟨.hbm, 311, rfl⟩
abbrev main_v205 : Ref sig .tc := ⟨.hbm, 312, rfl⟩
abbrev main_c_59 : Ref sig .tc := ⟨.hbm, 313, rfl⟩
abbrev main_c_60 : Ref sig .tc := ⟨.hbm, 314, rfl⟩
abbrev main_call8_v0 : Ref sig .tc := ⟨.hbm, 315, rfl⟩
abbrev main_call8_v1 : Ref sig .tc := ⟨.hbm, 316, rfl⟩
abbrev main_call8_v2 : Ref sig .tc := ⟨.hbm, 317, rfl⟩
abbrev main_call8_v3 : Ref sig .tc := ⟨.hbm, 318, rfl⟩
abbrev main_call8_v4 : Ref sig .tc := ⟨.hbm, 319, rfl⟩
abbrev main_v206 : Ref sig .tc := ⟨.hbm, 320, rfl⟩
abbrev main_cst_61 : Ref sig .tc := ⟨.hbm, 321, rfl⟩
abbrev main_v207 : Ref sig .tc := ⟨.hbm, 322, rfl⟩
abbrev main_v208 : Ref sig .tc := ⟨.hbm, 323, rfl⟩
abbrev main_c_62 : Ref sig .tc := ⟨.hbm, 324, rfl⟩
abbrev main_c_63 : Ref sig .tc := ⟨.hbm, 325, rfl⟩
abbrev main_call9_v0 : Ref sig .tc := ⟨.hbm, 326, rfl⟩
abbrev main_call9_v1 : Ref sig .tc := ⟨.hbm, 327, rfl⟩
abbrev main_call9_v2 : Ref sig .tc := ⟨.hbm, 328, rfl⟩
abbrev main_call9_v3 : Ref sig .tc := ⟨.hbm, 329, rfl⟩
abbrev main_call9_v4 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_c_64 : Ref sig .tc := ⟨.hbm, 338, rfl⟩
abbrev main_v216 : Ref sig .tc := ⟨.hbm, 339, rfl⟩
abbrev main_v217 : Ref sig .tc := ⟨.hbm, 340, rfl⟩
abbrev main_c_65 : Ref sig .tc := ⟨.hbm, 341, rfl⟩
abbrev main_v218 : Ref sig .tc := ⟨.hbm, 342, rfl⟩
abbrev main_v219 : Ref sig .tc := ⟨.hbm, 343, rfl⟩
abbrev main_v220 : Ref sig .tc := ⟨.hbm, 344, rfl⟩
abbrev main_c_66 : Ref sig .tc := ⟨.hbm, 345, rfl⟩
abbrev main_v221 : Ref sig .tc := ⟨.hbm, 346, rfl⟩
abbrev main_v222 : Ref sig .tc := ⟨.hbm, 347, rfl⟩
abbrev main_c_67 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_c_68 : Ref sig .tc := ⟨.hbm, 356, rfl⟩
abbrev main_v230 : Ref sig .tc := ⟨.hbm, 357, rfl⟩
abbrev main_v231 : Ref sig .tc := ⟨.hbm, 358, rfl⟩
abbrev main_c_69 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_c_70 : Ref sig .tc := ⟨.hbm, 363, rfl⟩
abbrev main_v235 : Ref sig .tc := ⟨.hbm, 364, rfl⟩
abbrev main_v236 : Ref sig .tc := ⟨.hbm, 365, rfl⟩
abbrev main_c_71 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_c_72 : Ref sig .tc := ⟨.hbm, 374, rfl⟩
abbrev main_v244 : Ref sig .tc := ⟨.hbm, 375, rfl⟩
abbrev main_v245 : Ref sig .tc := ⟨.hbm, 376, rfl⟩
abbrev main_c_73 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_c_74 : Ref sig .tc := ⟨.hbm, 381, rfl⟩
abbrev main_v249 : Ref sig .tc := ⟨.hbm, 382, rfl⟩
abbrev main_v250 : Ref sig .tc := ⟨.hbm, 383, rfl⟩
abbrev main_c_75 : Ref sig .tc := ⟨.hbm, 384, rfl⟩
abbrev main_v251 : Ref sig .tc := ⟨.hbm, 385, rfl⟩
abbrev main_v252 : Ref sig .tc := ⟨.hbm, 386, rfl⟩
abbrev main_v253 : Ref sig .tc := ⟨.hbm, 387, rfl⟩
abbrev main_v254 : Ref sig .tc := ⟨.hbm, 388, rfl⟩
abbrev main_v255 : Ref sig .tc := ⟨.hbm, 389, rfl⟩
abbrev main_v256 : Ref sig .tc := ⟨.hbm, 390, rfl⟩
abbrev main_v257 : Ref sig .tc := ⟨.hbm, 391, rfl⟩
abbrev main_c_76 : Ref sig .tc := ⟨.hbm, 392, rfl⟩
abbrev main_v258 : Ref sig .tc := ⟨.hbm, 393, rfl⟩
abbrev main_v259 : Ref sig .tc := ⟨.hbm, 394, rfl⟩
abbrev main_c_77 : Ref sig .tc := ⟨.hbm, 395, rfl⟩
abbrev main_v260 : Ref sig .tc := ⟨.hbm, 396, rfl⟩
abbrev main_v261 : Ref sig .tc := ⟨.hbm, 397, rfl⟩
abbrev main_v262 : Ref sig .tc := ⟨.hbm, 398, rfl⟩
abbrev main_c_78 : Ref sig .tc := ⟨.hbm, 399, rfl⟩
abbrev main_v263 : Ref sig .tc := ⟨.hbm, 400, rfl⟩
abbrev main_v264 : Ref sig .tc := ⟨.hbm, 401, rfl⟩
abbrev main_c_79 : Ref sig .tc := ⟨.hbm, 402, rfl⟩
abbrev main_v265 : Ref sig .tc := ⟨.hbm, 403, rfl⟩
abbrev main_v266 : Ref sig .tc := ⟨.hbm, 404, rfl⟩
abbrev main_v267 : Ref sig .tc := ⟨.hbm, 405, rfl⟩
abbrev main_v268 : Ref sig .tc := ⟨.hbm, 406, rfl⟩
abbrev main_v269 : Ref sig .tc := ⟨.hbm, 407, rfl⟩
abbrev main_v270 : Ref sig .tc := ⟨.hbm, 408, rfl⟩
abbrev main_v271 : Ref sig .tc := ⟨.hbm, 409, rfl⟩
abbrev main_cst_80 : Ref sig .tc := ⟨.hbm, 410, rfl⟩
abbrev main_v272 : Ref sig .tc := ⟨.hbm, 411, rfl⟩
abbrev main_v273 : Ref sig .tc := ⟨.hbm, 412, rfl⟩
abbrev main_v274 : Ref sig .tc := ⟨.hbm, 413, rfl⟩
abbrev main_v275 : Ref sig .tc := ⟨.hbm, 414, rfl⟩
abbrev main_v276 : Ref sig .tc := ⟨.hbm, 415, rfl⟩
abbrev main_cst_81 : Ref sig .tc := ⟨.hbm, 416, rfl⟩
abbrev main_v277 : Ref sig .tc := ⟨.hbm, 417, rfl⟩
abbrev main_v278 : Ref sig .tc := ⟨.hbm, 418, rfl⟩
abbrev main_v279 : Ref sig .tc := ⟨.hbm, 419, rfl⟩
abbrev main_v280 : Ref sig .tc := ⟨.hbm, 420, rfl⟩
abbrev main_v281 : Ref sig .tc := ⟨.hbm, 421, rfl⟩
abbrev main_v282 : Ref sig .tc := ⟨.hbm, 422, rfl⟩
abbrev main_v283 : Ref sig .tc := ⟨.hbm, 423, rfl⟩
abbrev main_v284 : Ref sig .tc := ⟨.hbm, 424, rfl⟩
abbrev main_cst_82 : Ref sig .tc := ⟨.hbm, 425, rfl⟩
abbrev main_v285 : Ref sig .tc := ⟨.hbm, 426, rfl⟩
abbrev main_v286 : Ref sig .tc := ⟨.hbm, 427, rfl⟩
abbrev main_v287 : Ref sig .tc := ⟨.hbm, 428, rfl⟩
abbrev main_v288 : Ref sig .tc := ⟨.hbm, 429, rfl⟩
abbrev main_v289 : Ref sig .tc := ⟨.hbm, 430, rfl⟩
abbrev main_v290 : Ref sig .tc := ⟨.hbm, 431, rfl⟩
abbrev main_cst_83 : Ref sig .tc := ⟨.hbm, 432, rfl⟩
abbrev main_v291 : Ref sig .tc := ⟨.hbm, 433, rfl⟩
abbrev main_v292 : Ref sig .tc := ⟨.hbm, 434, rfl⟩
abbrev main_v293 : Ref sig .tc := ⟨.hbm, 435, rfl⟩
abbrev main_v294 : Ref sig .tc := ⟨.hbm, 436, rfl⟩
abbrev main_v295 : Ref sig .tc := ⟨.hbm, 437, rfl⟩
abbrev main_v296 : Ref sig .tc := ⟨.hbm, 438, rfl⟩
abbrev main_v297 : Ref sig .tc := ⟨.hbm, 439, rfl⟩
abbrev main_v298 : Ref sig .tc := ⟨.hbm, 440, rfl⟩
abbrev main_v299 : Ref sig .tc := ⟨.hbm, 441, rfl⟩
abbrev main_v300 : Ref sig .tc := ⟨.hbm, 442, rfl⟩
abbrev main_v301 : Ref sig .tc := ⟨.hbm, 443, rfl⟩
abbrev main_v302 : Ref sig .tc := ⟨.hbm, 444, rfl⟩
abbrev main_v303 : Ref sig .tc := ⟨.hbm, 445, rfl⟩
abbrev main_v304 : Ref sig .tc := ⟨.hbm, 446, rfl⟩
abbrev main_v305 : Ref sig .tc := ⟨.hbm, 447, rfl⟩
abbrev main_v306 : Ref sig .tc := ⟨.hbm, 448, rfl⟩
abbrev main_cst_84 : Ref sig .tc := ⟨.hbm, 449, rfl⟩
abbrev main_v307 : Ref sig .tc := ⟨.hbm, 450, rfl⟩
abbrev main_v308 : Ref sig .tc := ⟨.hbm, 451, rfl⟩
abbrev main_cst_85 : Ref sig .tc := ⟨.hbm, 452, rfl⟩
abbrev main_v309 : Ref sig .tc := ⟨.hbm, 453, rfl⟩
abbrev main_v310 : Ref sig .tc := ⟨.hbm, 454, rfl⟩
abbrev main_cst_86 : Ref sig .tc := ⟨.hbm, 455, rfl⟩
abbrev main_v311 : Ref sig .tc := ⟨.hbm, 456, rfl⟩
abbrev main_v312 : Ref sig .tc := ⟨.hbm, 457, rfl⟩
abbrev main_v313 : Ref sig .tc := ⟨.hbm, 458, rfl⟩
abbrev main_c_87 : Ref sig .tc := ⟨.hbm, 459, rfl⟩
abbrev main_c_88 : Ref sig .tc := ⟨.hbm, 460, rfl⟩
abbrev main_call10_v0 : Ref sig .tc := ⟨.hbm, 461, rfl⟩
abbrev main_call10_v1 : Ref sig .tc := ⟨.hbm, 462, rfl⟩
abbrev main_call10_v2 : Ref sig .tc := ⟨.hbm, 463, rfl⟩
abbrev main_call10_v3 : Ref sig .tc := ⟨.hbm, 464, rfl⟩
abbrev main_call10_v4 : Ref sig .tc := ⟨.hbm, 465, rfl⟩
abbrev main_v314 : Ref sig .tc := ⟨.hbm, 466, rfl⟩
abbrev main_cst_89 : Ref sig .tc := ⟨.hbm, 467, rfl⟩
abbrev main_v315 : Ref sig .tc := ⟨.hbm, 468, rfl⟩
abbrev main_v316 : Ref sig .tc := ⟨.hbm, 469, rfl⟩
abbrev main_c_90 : Ref sig .tc := ⟨.hbm, 470, rfl⟩
abbrev main_c_91 : Ref sig .tc := ⟨.hbm, 471, rfl⟩
abbrev main_call11_v0 : Ref sig .tc := ⟨.hbm, 472, rfl⟩
abbrev main_call11_v1 : Ref sig .tc := ⟨.hbm, 473, rfl⟩
abbrev main_call11_v2 : Ref sig .tc := ⟨.hbm, 474, rfl⟩
abbrev main_call11_v3 : Ref sig .tc := ⟨.hbm, 475, rfl⟩
abbrev main_call11_v4 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_c_92 : Ref sig .tc := ⟨.hbm, 480, rfl⟩
abbrev main_v320 : Ref sig .tc := ⟨.hbm, 481, rfl⟩
abbrev main_v321 : Ref sig .tc := ⟨.hbm, 482, rfl⟩
abbrev main_c_93 : Ref sig .tc := ⟨.hbm, 483, rfl⟩
abbrev main_v322 : Ref sig .tc := ⟨.hbm, 484, rfl⟩
abbrev main_v323 : Ref sig .tc := ⟨.hbm, 485, rfl⟩
abbrev main_v324 : Ref sig .tc := ⟨.hbm, 486, rfl⟩
abbrev main_v325 : Ref sig .tc := ⟨.hbm, 487, rfl⟩
abbrev main_v326 : Ref sig .tc := ⟨.hbm, 488, rfl⟩
abbrev main_v327 : Ref sig .tc := ⟨.hbm, 489, rfl⟩
abbrev main_c_94 : Ref sig .tc := ⟨.hbm, 490, rfl⟩
abbrev main_v328 : Ref sig .tc := ⟨.hbm, 491, rfl⟩
abbrev main_v329 : Ref sig .tc := ⟨.hbm, 492, rfl⟩
abbrev main_c_95 : Ref sig .tc := ⟨.hbm, 493, rfl⟩
abbrev main_v330 : Ref sig .tc := ⟨.hbm, 494, rfl⟩
abbrev main_v331 : Ref sig .tc := ⟨.hbm, 495, rfl⟩
abbrev main_v332 : Ref sig .tc := ⟨.hbm, 496, rfl⟩
abbrev main_v333 : Ref sig .tc := ⟨.hbm, 497, rfl⟩
abbrev main_v334 : Ref sig .tc := ⟨.hbm, 498, rfl⟩
abbrev main_cst_96 : Ref sig .tc := ⟨.hbm, 499, rfl⟩
abbrev main_v335 : Ref sig .tc := ⟨.hbm, 500, rfl⟩
abbrev main_v336 : Ref sig .tc := ⟨.hbm, 501, rfl⟩
abbrev main_v337 : Ref sig .tc := ⟨.hbm, 502, rfl⟩
abbrev main_v338 : Ref sig .tc := ⟨.hbm, 503, rfl⟩
abbrev main_v339 : Ref sig .tc := ⟨.hbm, 504, rfl⟩
abbrev main_v340 : Ref sig .tc := ⟨.hbm, 505, rfl⟩
abbrev main_v341 : Ref sig .tc := ⟨.hbm, 506, rfl⟩
abbrev main_v342 : Ref sig .tc := ⟨.hbm, 507, rfl⟩
abbrev main_v343 : Ref sig .tc := ⟨.hbm, 508, rfl⟩
abbrev main_v344 : Ref sig .tc := ⟨.hbm, 509, rfl⟩
abbrev main_v345 : Ref sig .tc := ⟨.hbm, 510, rfl⟩
abbrev main_v346 : Ref sig .tc := ⟨.hbm, 511, rfl⟩

abbrev nD : Nat := 1
abbrev τ : Topo := Topo.v7x

variable {F : FTy → Type} [FloatOps F]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  bcast_S500000_S1x500000_1 : S500000.BroadcastsInDim S1x500000 (![1] : Fin 1 → Fin S1x500000.rank)
  concatenates_S1x500000_S1x500000_S1x500000_S3x500000_d0 : Shape.Concatenates [S1x500000, S1x500000, S1x500000] S3x500000 0
  slices_S500000x3_S500000x1_0_2 : S500000x3.Slices ![0, 2] S500000x1
  bcast_S_S3x500000 : S_.BroadcastsInDim S3x500000 (![] : Fin 0 → Fin S3x500000.rank)
  bcast_S3x500000_S3x500000x1_0_1 : S3x500000.BroadcastsInDim S3x500000x1 (![0, 1] : Fin 2 → Fin S3x500000x1.rank)
  concatenates_S3x500000x1_S3x500000x1_S3x500000x2_d2 : Shape.Concatenates [S3x500000x1, S3x500000x1] S3x500000x2 2
  bcast_S3x500000_S3x1x500000_0_2 : S3x500000.BroadcastsInDim S3x1x500000 (![0, 2] : Fin 2 → Fin S3x1x500000.rank)
  bcast_S3x1x500000_S3x16x500000_0_1_2 : S3x1x500000.BroadcastsInDim S3x16x500000 (![0, 1, 2] : Fin 3 → Fin S3x16x500000.rank)
  reducesTo_S3x16x500000_S500000_d0_1 : S3x16x500000.ReducesTo [0, 1] S500000
  h_S_ : 0 < S_.numel
  bcast_S3x1x500000_S3x48x500000_0_1_2 : S3x1x500000.BroadcastsInDim S3x48x500000 (![0, 1, 2] : Fin 3 → Fin S3x48x500000.rank)
  shapeCasts_S3x48x500000_S144x500000 : S3x48x500000.ShapeCasts S144x500000
  gather_S3x16x300x300_S3x500000x2_S3x16x500000_1_23_0_0_23_2_11611_wf : GatherDims.WF S3x16x300x300 S3x500000x2 S3x16x500000 [1] [2, 3] [0] [2, 3] [0] 2 ![1, 16, 1, 1]
  gather_S3x16x300_S3x500000x1_S3x16x500000_1_2_0_0_2_2_1161_wf : GatherDims.WF S3x16x300 S3x500000x1 S3x16x500000 [1] [2] [0] [2] [0] 2 ![1, 16, 1]
  gather_S3x48x300x300_S3x500000x2_S3x48x500000_1_23_0_0_23_2_14811_wf : GatherDims.WF S3x48x300x300 S3x500000x2 S3x48x500000 [1] [2, 3] [0] [2, 3] [0] 2 ![1, 48, 1, 1]
  gather_S3x48x300_S3x500000x1_S3x48x500000_1_2_0_0_2_2_1481_wf : GatherDims.WF S3x48x300 S3x500000x1 S3x48x500000 [1] [2] [0] [2] [0] 2 ![1, 48, 1]
  dot_S144x500000_S27x144_S500000x27_0_1_1_0_n_n_wf : DotDims.WF S144x500000 S27x144 S500000x27 [0] [1] [1] [0] [] []

variable [Facts₀]

def gather_S3x16x300x300_S3x500000x2_S3x16x500000_1_23_0_0_23_2_11611 : GatherDims S3x16x300x300 S3x500000x2 S3x16x500000 where
  offsetDims := [1]
  collapsedSliceDims := [2, 3]
  operandBatchingDims := [0]
  startIndicesBatchingDims := [0]
  startIndexMap := [2, 3]
  indexVectorDim := 2
  sliceSizes := ![1, 16, 1, 1]
  wf := gather_S3x16x300x300_S3x500000x2_S3x16x500000_1_23_0_0_23_2_11611_wf
def gather_S3x16x300_S3x500000x1_S3x16x500000_1_2_0_0_2_2_1161 : GatherDims S3x16x300 S3x500000x1 S3x16x500000 where
  offsetDims := [1]
  collapsedSliceDims := [2]
  operandBatchingDims := [0]
  startIndicesBatchingDims := [0]
  startIndexMap := [2]
  indexVectorDim := 2
  sliceSizes := ![1, 16, 1]
  wf := gather_S3x16x300_S3x500000x1_S3x16x500000_1_2_0_0_2_2_1161_wf
def gather_S3x48x300x300_S3x500000x2_S3x48x500000_1_23_0_0_23_2_14811 : GatherDims S3x48x300x300 S3x500000x2 S3x48x500000 where
  offsetDims := [1]
  collapsedSliceDims := [2, 3]
  operandBatchingDims := [0]
  startIndicesBatchingDims := [0]
  startIndexMap := [2, 3]
  indexVectorDim := 2
  sliceSizes := ![1, 48, 1, 1]
  wf := gather_S3x48x300x300_S3x500000x2_S3x48x500000_1_23_0_0_23_2_14811_wf
def gather_S3x48x300_S3x500000x1_S3x48x500000_1_2_0_0_2_2_1481 : GatherDims S3x48x300 S3x500000x1 S3x48x500000 where
  offsetDims := [1]
  collapsedSliceDims := [2]
  operandBatchingDims := [0]
  startIndicesBatchingDims := [0]
  startIndexMap := [2]
  indexVectorDim := 2
  sliceSizes := ![1, 48, 1]
  wf := gather_S3x48x300_S3x500000x1_S3x48x500000_1_2_0_0_2_2_1481_wf
def dot_S144x500000_S27x144_S500000x27_0_1_1_0_n_n : DotDims S144x500000 S27x144 S500000x27 where
  lhsContracting := [0]
  rhsContracting := [1]
  lhsNonContracting := [1]
  rhsNonContracting := [0]
  lhsBatch := []
  rhsBatch := []
  wf := dot_S144x500000_S27x144_S500000x27_0_1_1_0_n_n_wf

class Facts : Prop extends Facts₀ where

variable [Facts]
-- ==== Proof.LibLines.lean ====
import Idealize.ShloMosaic.Lib.StableHlo.Run

noncomputable section

namespace Idealize.ShloMosaic.StableHlo

variable {τ : Topo} {sig : RefSig} {Val : EltTy → Type}

/-- A line whose one written buffer lies beyond the first `n` writes none of the first `n`. -/
theorem keeps_of_writes {n : ℕ} {op : HloOp τ sig Val} {d : Ref sig .tc} (h : op.writes = {Proc.devRef .tc d}) (hd : ¬ d.idx.val < n) :
    ∀ r : Ref sig .tc, r.idx.val < n → Proc.devRef (τ := τ) .tc r ∉ op.writes := fun r hr e => by
  rw [h, Finset.mem_singleton] at e
  exact hd (Proc.devRef_injective _ e ▸ hr)

/-- What holds of every member of every list of a list of lists, in membership form. -/
theorem forall_mem_mem {α : Type*} {p : α → Prop} {L : List (List α)} (h : L.Forall fun l => l.Forall p) :
    ∀ l ∈ L, ∀ a ∈ l, p a := fun l hl =>
  List.forall_iff_forall_mem.mp (List.forall_iff_forall_mem.mp h l hl)

/-- It holds of every member of their concatenation. -/
theorem forall_flatten {α : Type*} {p : α → Prop} {L : List (List α)} (h : L.Forall fun l => l.Forall p) :
    ∀ a ∈ L.flatten, p a := fun a ha => by
  obtain ⟨l, hl, hal⟩ := List.mem_flatten.mp ha
  exact forall_mem_mem h l hl a hal

end Idealize.ShloMosaic.StableHlo

end
-- ==== Proof.KernelAround.lean ====
import proofs.«401645_j73761768342118_3_alg».proof.Proof.Gen.Kernel.Launch
import proofs.«401645_j73761768342118_3_alg».proof.Proof.LibLines
import Idealize.ShloMosaic.Lib.Pipeline.FrameBody
import Idealize.ShloMosaic.Lib.Pipeline.FrameSuffix

set_option maxRecDepth 16384

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

abbrev before : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]

abbrev behind : List (List (HloOp τ sig (Elt F))) := [hostOps1]

variable (m : (ℓ : Loc nD τ sig) → Buf (Elt F) ℓ)

abbrev V0 (c : Dev nD) : Valuation τ sig (Elt F) := StableHlo.after (before (F := F)).flatten (fun b => m (c, b))

abbrev V (c : Dev nD) (b : Ref sig .tc) : Buf (Elt F) ((c : Thread nD τ).loc b) := V0 m c (Proc.devRef .tc b)

theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub⟩

theorem before_fresh : (before (F := F)).Forall fun ops => ops.Forall fun op => op.fresh = ∅ := by
  repeat' apply And.intro
  all_goals rfl

abbrev Early (r : Ref sig .tc) : Prop := r.idx.val < 6

theorem behind_early : (behind (F := F)).Forall fun ops => ops.Forall fun op => ∀ r : Ref sig .tc, Early r → Proc.devRef (τ := τ) .tc r ∉ op.writes := by
  repeat' apply And.intro
  all_goals exact StableHlo.keeps_of_writes rfl (by decide)

theorem before_keeps : (before (F := F)).Forall fun ops => ops.Forall fun op => ∀ r : Ref sig .tc, Early r → Proc.devRef (τ := τ) .tc r ∉ op.writes := by
  repeat' apply And.intro
  all_goals exact StableHlo.keeps_of_writes rfl (by decide)

theorem V_early (c : Dev nD) (r : Ref sig .tc) (hr : Early r) : V m c r = m ((c : Thread nD τ).loc r) :=
  StableHlo.after_of_forall_not_mem (b := Proc.devRef .tc r) _ _ fun op hop => StableHlo.forall_flatten before_keeps op hop r hr

theorem tail_early (dats : (p : Fin 1) → (c : Dev nD) → Dat τ (Elt F) Unit ℕ (UR sig nD τ) ℕ (cfgs p) c) (c : Dev nD)
    (r : Ref sig .tc) (hr : Early r) (hne : ∀ w, Pipeline.arrRef spec0 w ≠ r) :
    Pipeline.afterTail₀ cfgs dats 0 (V0 m) (behind (F := F)) c r = m ((c : Thread nD τ).loc r) := by
  unfold Pipeline.afterTail₀
  rw [StableHlo.after_of_forall_not_mem (b := Proc.devRef .tc r) _ _ (fun op hop => StableHlo.forall_flatten behind_early op hop r hr),
    Pipeline.withArrays_of_ne _ c (V0 m c) _ r hne]
  exact V_early m c r hr

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before behind before_sub before_fresh main_chain

theorem behind_sub : ∀ ops ∈ (behind : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem behind_fresh : ∀ ops ∈ (behind : List (List (HloOp τ sig (Elt F)))), ∀ op ∈ ops, op.fresh = ∅ :=
  StableHlo.forall_mem_mem (by repeat' apply And.intro; all_goals rfl)

theorem behind_keeps : ∀ ops ∈ (behind : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

end Cert.Kernel.Around

end
-- ==== Proof.KernelBody.lean ====
import proofs.«401645_j73761768342118_3_alg».proof.Proof.KernelAround
import proofs.«401645_j73761768342118_3_alg».proof.Proof.Gen.Kernel.Skeleton
import proofs.«401645_j73761768342118_3_alg».proof.Proof.Gen.Kernel.Points
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rFeat : Rect S144x16384 := Rect.unit (s := S144x16384) ![0, 0] S144x16384.size inb_S144x16384_S144x16384_0_0
abbrev rWgt : Rect S27x144 := Rect.unit (s := S27x144) ![0, 0] S27x144.size inb_S27x144_S27x144_0_0
abbrev rOut : Rect S27x16384 := Rect.unit (s := S27x16384) ![0, 0] S27x16384.size inb_S27x16384_S27x16384_0_0

def outBlock (x : Vec F S144x16384 .f32) (w : Vec F S27x144 .f32) : Vec F S27x16384 .f32 :=
  View.canon [⟨rOut, k0_pay1 (View.ld w rWgt) (View.ld x rFeat)⟩]

theorem out_cover (p0 : Vec F S27x16384 .f32) (y : S27x16384.Idx) :
    ∃ pc ∈ ([⟨rOut, p0⟩] : List (View.Piece (Elt F) S27x16384 .f32)), y ∈ pc.1.set :=
  View.cover_of_tiled [⟨rOut, p0⟩] S27x16384.size (by rfl) y

set_option maxHeartbeats 1000000 in
/-- The body leaves its two inputs as found and the product of the weights with the feature block in the output block. -/
theorem sound_kernel (c : Dev nD) (E : Set ℕ) (i : grid0.Coords)
    (arg1 : Memref sig .tc .vmem S144x16384 .f32) (harg1 : arg1.IsWhole) (arg2 : Memref sig .tc .vmem S27x144 .f32) (harg2 : arg2.IsWhole)
    (arg3 : Memref sig .tc .vmem S27x16384 .f32) (harg3 : arg3.IsWhole)
    (x : Vec F S144x16384 .f32) (w : Vec F S27x144 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (outBlock x w)) -∗ K ⟨⟩))
      ⊢ wp frame (wpE (defs₀ (F := F)) Variants.none c none) E (cc0__app_proj_kernel i arg1 harg1 arg2 harg2 arg3 harg3) K := by
  simp only [cc0__app_proj_kernel_eq_skeleton]; unfold cc0__app_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover _)

end Cert.Kernel.Around

end
-- ==== Proof.KernelFrame.lean ====
import proofs.«401645_j73761768342118_3_alg».proof.Proof.KernelBody

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_feat (c : Dev nD) (t : Fin cfg0.N) : (dats m 0 c).after 0 t = iblk m c 0 t := by dsimp only [dats]
theorem after_wgt (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before_feat (c : Dev nD) (t : Fin cfg0.N) (d) : (dats m 0 c).before 0 t d = iblk m c 0 t :=
  ((dats m 0 c).before_in_eq_fetched 0 rfl (fun _ => rfl) (fun _ _ _ => rfl)
    (fun t => by rw [after_feat]; unfold Dat.blockOf iblk; rw [A_eq]; try rfl) t d).trans
    (by unfold Dat.fetched Dat.blockOf iblk; rw [A_eq]; try rfl)

theorem before_wgt (c : Dev nD) (t : Fin cfg0.N) (d) : (dats m 0 c).before 1 t d = iblk m c 1 t :=
  ((dats m 0 c).before_in_eq_fetched 1 rfl (fun _ => rfl) (fun _ _ _ => rfl)
    (fun t => by rw [after_wgt]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_feat, before_wgt]
  rw [show (dats m 0 c).Φ t.succ = (dats m 0 c).Φ t.castSucc from rfl,
    show (dats m 0 c).owesAt () t.succ = (dats m 0 c).owesAt () t.castSucc from rfl,
    after_feat, after_wgt, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main ends, each array of the call at the contents its grid points leave and every other buffer at what the two lines after the call leave. -/
theorem run_main : θ_run defs (onTc (τ := τ) (main (F := F))) (s₀ m ρ)
    (Pipeline.FramePost cfgs (dats m) 0 (Pipeline.afterTail₀ cfgs (dats m) 0 (V0 m) behind)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := behind) (hsub := behind_sub) (hfresh := behind_fresh) (hkeep := behind_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (tail_early m (dats m) c main_arg0 (by decide) (by decide)),
     ((h c).2 main_arg1 (Pipeline.mem_restRefs_of main_arg1 (by decide) (by decide))).trans (tail_early m (dats m) c main_arg1 (by decide) (by decide)),
     ((h c).2 main_arg2 (Pipeline.mem_restRefs_of main_arg2 (by decide) (by decide))).trans (tail_early m (dats m) c main_arg2 (by decide) (by decide)),
     ((h c).2 main_arg3 (Pipeline.mem_restRefs_of main_arg3 (by decide) (by decide))).trans (tail_early m (dats m) c main_arg3 (by decide) (by decide)),
     ((h c).2 main_arg4 (Pipeline.mem_restRefs_of main_arg4 (by decide) (by decide))).trans (tail_early m (dats m) c main_arg4 (by decide) (by decide)),
     ((h c).1 1).trans (((dats m 0 c).arrAt_in 1 rfl _).trans ((A_eq m c 1).trans (V_early m c main_arg5 (by decide))))⟩)
    (run_main m ρ)

end Cert.Kernel.Around

end
-- ==== Proof.KernelIdealAround.lean ====
import proofs.«401645_j73761768342118_3_alg».proof.Proof.Gen.KernelIdeal.Launch
import proofs.«401645_j73761768342118_3_alg».proof.Proof.LibLines
import Idealize.ShloMosaic.Lib.Pipeline.FrameBody
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

abbrev before : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]

abbrev behind : List (List (HloOp τ sig (Elt F))) := [hostOps1]

variable (m : (ℓ : Loc nD τ sig) → Buf (Elt F) ℓ)

abbrev V0 (c : Dev nD) : Valuation τ sig (Elt F) := StableHlo.after (before (F := F)).flatten (fun b => m (c, b))

abbrev V (c : Dev nD) (b : Ref sig .tc) : Buf (Elt F) ((c : Thread nD τ).loc b) := V0 m c (Proc.devRef .tc b)

theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub⟩

theorem before_fresh : (before (F := F)).Forall fun ops => ops.Forall fun op => op.fresh = ∅ := by
  repeat' apply And.intro
  all_goals rfl

abbrev Early (r : Ref sig .tc) : Prop := r.idx.val < 6

theorem behind_early : (behind (F := F)).Forall fun ops => ops.Forall fun op => ∀ r : Ref sig .tc, Early r → Proc.devRef (τ := τ) .tc r ∉ op.writes := by
  repeat' apply And.intro
  all_goals exact StableHlo.keeps_of_writes rfl (by decide)

theorem before_keeps : (before (F := F)).Forall fun ops => ops.Forall fun op => ∀ r : Ref sig .tc, Early r → Proc.devRef (τ := τ) .tc r ∉ op.writes := by
  repeat' apply And.intro
  all_goals exact StableHlo.keeps_of_writes rfl (by decide)

theorem V_early (c : Dev nD) (r : Ref sig .tc) (hr : Early r) : V m c r = m ((c : Thread nD τ).loc r) :=
  StableHlo.after_of_forall_not_mem (b := Proc.devRef .tc r) _ _ fun op hop => StableHlo.forall_flatten before_keeps op hop r hr

theorem tail_early (dats : (p : Fin 1) → (c : Dev nD) → Dat τ (Elt F) Unit ℕ (UR sig nD τ) ℕ (cfgs p) c) (c : Dev nD)
    (r : Ref sig .tc) (hr : Early r) (hne : ∀ w, Pipeline.arrRef spec0 w ≠ r) :
    Pipeline.afterTail₀ cfgs dats 0 (V0 m) (behind (F := F)) c r = m ((c : Thread nD τ).loc r) := by
  unfold Pipeline.afterTail₀
  rw [StableHlo.after_of_forall_not_mem (b := Proc.devRef .tc r) _ _ (fun op hop => StableHlo.forall_flatten behind_early op hop r hr),
    Pipeline.withArrays_of_ne _ c (V0 m c) _ r hne]
  exact V_early m c r hr

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before behind before_sub before_fresh main_chain

theorem behind_sub : ∀ ops ∈ (behind : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem behind_fresh : ∀ ops ∈ (behind : List (List (HloOp τ sig (Elt F)))), ∀ op ∈ ops, op.fresh = ∅ :=
  StableHlo.forall_mem_mem (by repeat' apply And.intro; all_goals rfl)

theorem behind_keeps : ∀ ops ∈ (behind : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

end Cert.KernelIdeal.Around

end
-- ==== Proof.KernelIdealBody.lean ====
import proofs.«401645_j73761768342118_3_alg».proof.Proof.KernelIdealAround
import proofs.«401645_j73761768342118_3_alg».proof.Proof.Gen.KernelIdeal.Skeleton
import proofs.«401645_j73761768342118_3_alg».proof.Proof.Gen.KernelIdeal.Points
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rFeat : Rect S144x16384 := Rect.unit (s := S144x16384) ![0, 0] S144x16384.size inb_S144x16384_S144x16384_0_0
abbrev rWgt : Rect S27x144 := Rect.unit (s := S27x144) ![0, 0] S27x144.size inb_S27x144_S27x144_0_0
abbrev rOut : Rect S27x16384 := Rect.unit (s := S27x16384) ![0, 0] S27x16384.size inb_S27x16384_S27x16384_0_0

def outBlock (x : Vec F S144x16384 .f32) (w : Vec F S27x144 .f32) : Vec F S27x16384 .f32 :=
  View.canon [⟨rOut, k0_pay1 (View.ld w rWgt) (View.ld x rFeat)⟩]

theorem out_cover (p0 : Vec F S27x16384 .f32) (y : S27x16384.Idx) :
    ∃ pc ∈ ([⟨rOut, p0⟩] : List (View.Piece (Elt F) S27x16384 .f32)), y ∈ pc.1.set :=
  View.cover_of_tiled [⟨rOut, p0⟩] S27x16384.size (by rfl) y

set_option maxHeartbeats 1000000 in
/-- The body leaves its two inputs as found and the product of the weights with the feature block in the output block. -/
theorem sound_kernel (c : Dev nD) (E : Set ℕ) (i : grid0.Coords)
    (arg1 : Memref sig .tc .vmem S144x16384 .f32) (harg1 : arg1.IsWhole) (arg2 : Memref sig .tc .vmem S27x144 .f32) (harg2 : arg2.IsWhole)
    (arg3 : Memref sig .tc .vmem S27x16384 .f32) (harg3 : arg3.IsWhole)
    (x : Vec F S144x16384 .f32) (w : Vec F S27x144 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (outBlock x w)) -∗ K ⟨⟩))
      ⊢ wp frame (wpE (defs₀ (F := F)) Variants.none c none) E (cc0__app_proj_kernel i arg1 harg1 arg2 harg2 arg3 harg3) K := by
  simp only [cc0__app_proj_kernel_eq_skeleton]; unfold cc0__app_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover _)

end Cert.KernelIdeal.Around

end
-- ==== Proof.KernelIdealFrame.lean ====
import proofs.«401645_j73761768342118_3_alg».proof.Proof.KernelIdealBody

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_feat (c : Dev nD) (t : Fin cfg0.N) : (dats m 0 c).after 0 t = iblk m c 0 t := by dsimp only [dats]
theorem after_wgt (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before_feat (c : Dev nD) (t : Fin cfg0.N) (d) : (dats m 0 c).before 0 t d = iblk m c 0 t :=
  ((dats m 0 c).before_in_eq_fetched 0 rfl (fun _ => rfl) (fun _ _ _ => rfl)
    (fun t => by rw [after_feat]; unfold Dat.blockOf iblk; rw [A_eq]; try rfl) t d).trans
    (by unfold Dat.fetched Dat.blockOf iblk; rw [A_eq]; try rfl)

theorem before_wgt (c : Dev nD) (t : Fin cfg0.N) (d) : (dats m 0 c).before 1 t d = iblk m c 1 t :=
  ((dats m 0 c).before_in_eq_fetched 1 rfl (fun _ => rfl) (fun _ _ _ => rfl)
    (fun t => by rw [after_wgt]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_feat, before_wgt]
  rw [show (dats m 0 c).Φ t.succ = (dats m 0 c).Φ t.castSucc from rfl,
    show (dats m 0 c).owesAt () t.succ = (dats m 0 c).owesAt () t.castSucc from rfl,
    after_feat, after_wgt, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main ends, each array of the call at the contents its grid points leave and every other buffer at what the two lines after the call leave. -/
theorem run_main : θ_run defs (onTc (τ := τ) (main (F := F))) (s₀ m ρ)
    (Pipeline.FramePost cfgs (dats m) 0 (Pipeline.afterTail₀ cfgs (dats m) 0 (V0 m) behind)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := behind) (hsub := behind_sub) (hfresh := behind_fresh) (hkeep := behind_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (tail_early m (dats m) c main_arg0 (by decide) (by decide)),
     ((h c).2 main_arg1 (Pipeline.mem_restRefs_of main_arg1 (by decide) (by decide))).trans (tail_early m (dats m) c main_arg1 (by decide) (by decide)),
     ((h c).2 main_arg2 (Pipeline.mem_restRefs_of main_arg2 (by decide) (by decide))).trans (tail_early m (dats m) c main_arg2 (by decide) (by decide)),
     ((h c).2 main_arg3 (Pipeline.mem_restRefs_of main_arg3 (by decide) (by decide))).trans (tail_early m (dats m) c main_arg3 (by decide) (by decide)),
     ((h c).2 main_arg4 (Pipeline.mem_restRefs_of main_arg4 (by decide) (by decide))).trans (tail_early m (dats m) c main_arg4 (by decide) (by decide)),
     ((h c).1 1).trans (((dats m 0 c).arrAt_in 1 rfl _).trans ((A_eq m c 1).trans (V_early m c main_arg5 (by decide))))⟩)
    (run_main m ρ)

end Cert.KernelIdeal.Around

end
-- ==== Proof.LibPlainMatmul.lean ====
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- An M × K by K × N product into the zero accumulator has at (a, b) the value ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.PaddedProjection.lean ====
import proofs.«401645_j73761768342118_3_alg».proof.Proof.Gen.KernelIdeal.Skeleton
import proofs.«401645_j73761768342118_3_alg».proof.Proof.Gen.ReferenceIdeal
import proofs.«401645_j73761768342118_3_alg».proof.Proof.LibPlainMatmul
import Idealize.ShloMosaic.Lib.KernelVsHost

noncomputable section

open scoped BigOperators

namespace Cert.Bridge

open Idealize.ShloMosaic Idealize.ShloMosaic.ValueIdx

/-- The body's product at (d, j) is ∑ₖ w(d, k) · x(k, j). -/
theorem pay_apply (w : Vec Ideal Cert.KernelIdeal.S27x144 .f32) (x : Vec Ideal Cert.KernelIdeal.S144x16384 .f32) (d : Fin 27) (j : Fin 16384) :
    Cert.KernelIdeal.Gen.k0_pay1 (F := Ideal) w x (ix2 d j) = ∑ k : Fin 144, w (ix2 d k) * x (ix2 k j) := by
  unfold Cert.KernelIdeal.Gen.k0_pay1

  have hx : shapeCast Cert.KernelIdeal.S144x16384 x Cert.KernelIdeal.Facts₀.shapeCasts_S144x16384_S144x16384 = x :=
    shapeCast_self x _
  show matmul Cert.KernelIdeal.dot_S27x144_S144x16384_S27x16384_1_0_0_1_n_n (some .fp32) w
      (shapeCast Cert.KernelIdeal.S144x16384 x Cert.KernelIdeal.Facts₀.shapeCasts_S144x16384_S144x16384)
      (constant (F := Ideal) Cert.KernelIdeal.S27x16384 .f32 0x00000000#32) (ix2 d j) = _
  rw [hx]

  exact Cert.LibPlainMatmul.matmul_zero_apply 27 144 16384 (some .fp32) w x d j

def padded (X : (⟨Cert.KernelIdeal.S144x500000, .f32⟩ : BufTy).Contents (Elt Ideal)) (v : (⟨Cert.KernelIdeal.S_, .f32⟩ : BufTy).Contents (Elt Ideal)) :
    (⟨Cert.KernelIdeal.S144x507904, .f32⟩ : BufTy).Contents (Elt Ideal) :=
  pad Cert.KernelIdeal.S144x507904 ![0, 0] ![0, 7904] ![0, 0] X v Cert.KernelIdeal.Facts₀.pads_S144x500000_S144x507904_000_079040 Cert.KernelIdeal.Facts₀.h_S_

/-- Inside the first 500000 columns the padded array is the array. -/
theorem padded_apply (X : (⟨Cert.KernelIdeal.S144x500000, .f32⟩ : BufTy).Contents (Elt Ideal)) (v : (⟨Cert.KernelIdeal.S_, .f32⟩ : BufTy).Contents (Elt Ideal))
    (k : Fin 144) (n : Fin 500000) : padded X v (ix2 k ⟨n.val, by omega⟩) = X (ix2 k n) := by
  unfold padded
  refine pad_apply_of_inside _ _ _ X v _ _ _ (ix2 k n) ?_
  intro a
  match a with
  | ⟨0, _⟩ => show k.val = 0 + k.val * (0 + 1); omega
  | ⟨1, _⟩ => show n.val = 0 + n.val * (0 + 1); omega

theorem ref_lhs_0 (n : Fin 500000) (d : Fin 27) (q : Cert.ReferenceIdeal.dot_S144x500000_S27x144_S500000x27_0_1_1_0_n_n.contr.Idx) :
    (Cert.ReferenceIdeal.dot_S144x500000_S27x144_S500000x27_0_1_1_0_n_n.lhsIdx (ix2 n d) q (0 : Fin 2)).val = (q ⟨0, by decide⟩).val :=
  Cert.ReferenceIdeal.dot_S144x500000_S27x144_S500000x27_0_1_1_0_n_n.lhsIdx_val_of_single (cl := (0 : Fin 2)) rfl (ix2 n d) q

theorem ref_lhs_1 (n : Fin 500000) (d : Fin 27) (q : Cert.ReferenceIdeal.dot_S144x500000_S27x144_S500000x27_0_1_1_0_n_n.contr.Idx) :
    (Cert.ReferenceIdeal.dot_S144x500000_S27x144_S500000x27_0_1_1_0_n_n.lhsIdx (ix2 n d) q (1 : Fin 2)).val = n.val := by
  unfold DotDims.lhsIdx
  rw [dif_neg (show ¬(1 : Fin 2) ∈ Cert.ReferenceIdeal.dot_S144x500000_S27x144_S500000x27_0_1_1_0_n_n.lhsBatch from List.not_mem_nil),
    dif_pos (show (1 : Fin 2) ∈ Cert.ReferenceIdeal.dot_S144x500000_S27x144_S500000x27_0_1_1_0_n_n.lhsNonContracting from List.mem_singleton.mpr rfl)]
  rfl

theorem ref_rhs_0 (n : Fin 500000) (d : Fin 27) (q : Cert.ReferenceIdeal.dot_S144x500000_S27x144_S500000x27_0_1_1_0_n_n.contr.Idx) :
    (Cert.ReferenceIdeal.dot_S144x500000_S27x144_S500000x27_0_1_1_0_n_n.rhsIdx (ix2 n d) q (0 : Fin 2)).val = d.val := by
  unfold DotDims.rhsIdx
  rw [dif_neg (show ¬(0 : Fin 2) ∈ Cert.ReferenceIdeal.dot_S144x500000_S27x144_S500000x27_0_1_1_0_n_n.rhsBatch from List.not_mem_nil),
    dif_pos (show (0 : Fin 2) ∈ Cert.ReferenceIdeal.dot_S144x500000_S27x144_S500000x27_0_1_1_0_n_n.rhsNonContracting from List.mem_singleton.mpr rfl)]
  rfl

theorem ref_rhs_1 (n : Fin 500000) (d : Fin 27) (q : Cert.ReferenceIdeal.dot_S144x500000_S27x144_S500000x27_0_1_1_0_n_n.contr.Idx) :
    (Cert.ReferenceIdeal.dot_S144x500000_S27x144_S500000x27_0_1_1_0_n_n.rhsIdx (ix2 n d) q (1 : Fin 2)).val = (q ⟨0, by decide⟩).val :=
  Cert.ReferenceIdeal.dot_S144x500000_S27x144_S500000x27_0_1_1_0_n_n.rhsIdx_val_of_single (cr := (1 : Fin 2)) rfl (ix2 n d) q

theorem ref_lhsIdx (n : Fin 500000) (d : Fin 27) (k : Fin 144) :
    Cert.ReferenceIdeal.dot_S144x500000_S27x144_S500000x27_0_1_1_0_n_n.lhsIdx (ix2 n d)
      ((contrEquiv1 Cert.ReferenceIdeal.dot_S144x500000_S27x144_S500000x27_0_1_1_0_n_n 144 rfl rfl).symm k) = ix2 k n := by
  have hk := contrEquiv1_symm_val Cert.ReferenceIdeal.dot_S144x500000_S27x144_S500000x27_0_1_1_0_n_n 144 rfl rfl k
  funext a
  refine Fin.ext ?_
  match a with
  | ⟨0, _⟩ => exact (ref_lhs_0 _ _ _).trans hk
  | ⟨1, _⟩ => exact ref_lhs_1 _ _ _

theorem ref_rhsIdx (n : Fin 500000) (d : Fin 27) (k : Fin 144) :
    Cert.ReferenceIdeal.dot_S144x500000_S27x144_S500000x27_0_1_1_0_n_n.rhsIdx (ix2 n d)
      ((contrEquiv1 Cert.ReferenceIdeal.dot_S144x500000_S27x144_S500000x27_0_1_1_0_n_n 144 rfl rfl).symm k) = ix2 d k := by
  have hk := contrEquiv1_symm_val Cert.ReferenceIdeal.dot_S144x500000_S27x144_S500000x27_0_1_1_0_n_n 144 rfl rfl k
  funext a
  refine Fin.ext ?_
  match a with
  | ⟨0, _⟩ => exact ref_rhs_0 _ _ _
  | ⟨1, _⟩ => exact (ref_rhs_1 _ _ _).trans hk

/-- The reference's contraction at (n, d) is ∑ₖ X(k, n) · W(d, k). -/
theorem ref_apply (X : (⟨Cert.KernelIdeal.S144x500000, .f32⟩ : BufTy).Contents (Elt Ideal)) (W : (⟨Cert.KernelIdeal.S27x144, .f32⟩ : BufTy).Contents (Elt Ideal))
    (n : Fin 500000) (d : Fin 27) :
    Host.dotGeneral (F := Ideal) (φ₁ := .f32) (φ₂ := .f32) Cert.ReferenceIdeal.dot_S144x500000_S27x144_S500000x27_0_1_1_0_n_n none X W (ix2 n d)
      = ∑ k : Fin 144, X (ix2 k n) * W (ix2 d k) := by
  simp only [Host.dotGeneral]
  rw [Ideal.dotGeneral_apply,
    ← Equiv.sum_comp (contrEquiv1 Cert.ReferenceIdeal.dot_S144x500000_S27x144_S500000x27_0_1_1_0_n_n 144 rfl rfl).symm]
  refine Finset.sum_congr rfl fun k _ => ?_
  rw [ref_lhsIdx, ref_rhsIdx]

/-- The product with the padding cut off, transposed, is the reference's contraction: multiplication of extended reals is commutative. -/
theorem sliced_transposed_eq (X : (⟨Cert.KernelIdeal.S144x500000, .f32⟩ : BufTy).Contents (Elt Ideal)) (v : (⟨Cert.KernelIdeal.S_, .f32⟩ : BufTy).Contents (Elt Ideal)) (W : (⟨Cert.KernelIdeal.S27x144, .f32⟩ : BufTy).Contents (Elt Ideal))
    (Y : (⟨Cert.KernelIdeal.S27x507904, .f32⟩ : BufTy).Contents (Elt Ideal))
    (hY : ∀ (d : Fin 27) (n : Fin 507904), Y (ix2 d n) = ∑ k : Fin 144, W (ix2 d k) * padded X v (ix2 k n)) :
    transpose Cert.KernelIdeal.S500000x27 [1, 0] (extractStridedSlice Cert.KernelIdeal.S27x500000 ![0, 0] Y Cert.KernelIdeal.Facts₀.slices_S27x507904_S27x500000_0_0) Cert.KernelIdeal.Facts₀.transposes_S27x500000_S500000x27_1_0
      = Host.dotGeneral (F := Ideal) (φ₁ := .f32) (φ₂ := .f32) Cert.ReferenceIdeal.dot_S144x500000_S27x144_S500000x27_0_1_1_0_n_n none X W := by
  funext j
  obtain ⟨n, d, rfl⟩ : ∃ (n : Fin 500000) (d : Fin 27), j = ix2 n d := ⟨j 0, j 1, eq_ix2 j⟩
  rw [ref_apply]
  refine (transpose_apply (s := Cert.KernelIdeal.S27x500000) [1, 0] _ _ (ix2 n d) (ix2 d n) ?_).trans ?_
  · intro b
    match b with
    | ⟨0, _⟩ => rfl
    | ⟨1, _⟩ => rfl
  refine (extractStridedSlice_apply (s := Cert.KernelIdeal.S27x507904) ![0, 0] Y _ (ix2 d n) (ix2 d ⟨n.val, by omega⟩) ?_).trans ?_
  · intro a
    match a with
    | ⟨0, _⟩ => show d.val = 0 + d.val; omega
    | ⟨1, _⟩ => show n.val = 0 + n.val; omega
  rw [hY]
  refine Finset.sum_congr rfl fun k _ => ?_
  rw [padded_apply, mul_comm]

end Cert.Bridge

end
-- ==== Proof.KernelIdealValue.lean ====
import proofs.«401645_j73761768342118_3_alg».proof.Proof.KernelIdealFrame
import proofs.«401645_j73761768342118_3_alg».proof.Proof.PaddedProjection
import Idealize.ShloMosaic.Lib.Pipeline.Value
import Idealize.ShloMosaic.Lib.ValueIdx

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

abbrev firsts : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

theorem before_split : (before (F := Ideal)).flatten = (firsts).flatten ++ hostOps0_25 := by
  show (firsts ++ [hostOps0_25]).flatten = _
  rw [List.flatten_append]
  simp only [List.flatten_cons, List.flatten_nil, List.append_nil]

theorem V_padded (c : Dev nD) : ∃ v : (⟨S_, .f32⟩ : BufTy).Contents (Elt Ideal),
    V m c main_v346 = Cert.Bridge.padded (V m c main_v345) v := by
  show ∃ v, StableHlo.after (before (F := Ideal)).flatten (fun b => m (c, b)) (Proc.devRef .tc main_v346)
    = Cert.Bridge.padded (StableHlo.after (before (F := Ideal)).flatten (fun b => m (c, b)) (Proc.devRef .tc main_v345)) v
  rw [before_split, StableHlo.after_append]
  generalize StableHlo.after (firsts).flatten (fun b => m (c, b)) = W
  refine ⟨sitofp (F := Ideal) .f32 (W (Proc.devRef .tc main_c_97)), ?_⟩
  unfold Cert.Bridge.padded
  after_results
  rfl

theorem hz : (![0, 0] : Fin 2 → Nat) = fun _ => 0 := funext fun a => by fin_cases a <;> rfl

def prod (Wt : S27x144.Idx → EReal) (Xp : S144x507904.Idx → EReal) : S27x507904.Idx → EReal :=
  fun i => ∑ k : Fin 144, Wt (ix2 (⟨(i 0).val, idx2_lt0 i⟩ : Fin 27) k) * Xp (ix2 k (⟨(i 1).val, idx2_lt1 i⟩ : Fin 507904))

theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- Grid point t leaves in the output array block t of the product of the weights with the padded feature array. -/
theorem flushed_eq (c : Dev nD) (t : Fin cfg0.N) :
    (dats m 0 c).flushed 2 t = ((cfg0.win 2).blk t).view.read (Elt Ideal) (prod (V m c main_arg5) (V m c main_v346)) := by
  show (cfg0.win 2).cut (grid0.coords t) ((dats m 0 c).after 2 t) = _
  rw [after_out]
  unfold outBlock
  rw [View.canon_unit_zero hz]
  simp only [View.ld_unit_zero (S := S144x16384) hz, View.ld_unit_zero (S := S27x144) hz]
  obtain ⟨e0, e1, e2, e3, e4, e5⟩ := idx_facts t
  funext j
  obtain ⟨d, q, rfl⟩ : ∃ (d : Fin 27) (q : Fin 16384), j = ix2 d q := ⟨j 0, j 1, eq_ix2 j⟩
  refine (Cert.Bridge.pay_apply (iblk m c 1 t) (iblk m c 0 t) d q).trans ?_
  show _ = prod (V m c main_arg5) (V m c main_v346) (((cfg0.win 2).blk t).view.emb (ix2 d q))
  unfold prod
  refine Finset.sum_congr rfl fun k _ => ?_
  have hw : iblk m c 1 t (ix2 d k) = V m c main_arg5 (ix2 (⟨((((cfg0.win 2).blk t).view.emb (ix2 d q)) 0).val, idx2_lt0 _⟩ : Fin 27) k) := by
    show V m c main_arg5 (((cfg0.win 1).blk t).view.emb (ix2 d k)) = _
    congr 1; funext a; apply Fin.ext
    match a with
    | ⟨0, _⟩ => show win0_1.index t (0 : Fin 2) * 27 + 1 * d.val = win0_2.index t (0 : Fin 2) * 27 + 1 * d.val; omega
    | ⟨1, _⟩ => show win0_1.index t (1 : Fin 2) * 144 + 1 * k.val = k.val; omega
  have hx : iblk m c 0 t (ix2 k q) = V m c main_v346 (ix2 k (⟨((((cfg0.win 2).blk t).view.emb (ix2 d q)) 1).val, idx2_lt1 _⟩ : Fin 507904)) := by
    show V m c main_v346 (((cfg0.win 0).blk t).view.emb (ix2 k q)) = _
    congr 1; funext a; apply Fin.ext
    match a with
    | ⟨0, _⟩ => show win0_0.index t (0 : Fin 2) * 144 + 1 * k.val = k.val; omega
    | ⟨1, _⟩ => show win0_0.index t (1 : Fin 2) * 16384 + 1 * q.val = win0_2.index t (1 : Fin 2) * 16384 + 1 * q.val; omega
  rw [hw, hx]

theorem mem_blk (t : Fin cfg0.N) (i : S27x507904.Idx) :
    i ∈ ((cfg0.win 2).blk t).view.set ↔ ∀ a : Fin 2, win0_2.index t a * S27x16384.size a ≤ (i a).val ∧ (i a).val < win0_2.index t a * S27x16384.size a + S27x16384.size a := by
  show i ∈ ((View.whole main_v347).slice (win0_2.rect t)).set ↔ _
  rw [View.set_slice_whole, Rect.mem_set_unit]
  exact Iff.rfl

theorem covered (i : S27x507904.Idx) :
    ∃ t : Fin cfg0.N, (cfg0.win 2).flush t = true ∧ i ∈ ((cfg0.win 2).blk t).view.set := by
  have hi0 : (i 0).val < 27 := idx2_lt0 i
  have hi1 : (i 1).val < 507904 := idx2_lt1 i
  have hN : cfg0.N = 31 := N_0
  let t : Fin cfg0.N := ⟨(i 1).val / 16384, by rw [hN]; omega⟩
  obtain ⟨e0, e1, e2, e3, e4, e5⟩ := idx_facts t
  have ht : t.val = (i 1).val / 16384 := rfl
  refine ⟨t, flush0_2 t, ?_⟩
  rw [mem_blk]
  intro a
  match a with
  | ⟨0, _⟩ => show win0_2.index t (0 : Fin 2) * 27 ≤ (i 0).val ∧ (i 0).val < win0_2.index t (0 : Fin 2) * 27 + 27; omega
  | ⟨1, _⟩ => show win0_2.index t (1 : Fin 2) * 16384 ≤ (i 1).val ∧ (i 1).val < win0_2.index t (1 : Fin 2) * 16384 + 16384; omega

/-- The 31 blocks tile the output array, so it ends at that product. -/
theorem final (c : Dev nD) : (dats m 0 c).arrAt 2 cfg0.N = prod (V m c main_arg5) (V m c main_v346) :=
  (dats m 0 c).arrAt_eq_of_cover 2 _ (fun t _ => flushed_eq m c t) covered

theorem tail_out (c : Dev nD) : Pipeline.afterTail₀ cfgs (dats m) 0 (V0 m) (behind (F := Ideal)) c main_v349
    = transpose S500000x27 [1, 0] (extractStridedSlice S27x500000 ![0, 0] (prod (V m c main_arg5) (V m c main_v346)) slices_S27x507904_S27x500000_0_0) transposes_S27x500000_S500000x27_1_0 := by
  unfold Pipeline.afterTail₀
  show StableHlo.after hostOps1 _ (Proc.devRef .tc main_v349) = _
  after_results
  rw [(Pipeline.withArrays_arr spec0 launch0.win.arr_inj c _ _ 2).trans (final m c)]

theorem tail_sigma (c : Dev nD) : Pipeline.afterTail₀ cfgs (dats m) 0 (V0 m) (behind (F := Ideal)) c main_v187 = V m c main_v187 := by
  unfold Pipeline.afterTail₀
  rw [StableHlo.after_of_forall_not_mem (b := Proc.devRef .tc main_v187) _ _ (fun op hop => by
      simp only [List.flatten_cons, List.flatten_nil, List.append_nil, hostOps1, List.mem_cons, List.mem_nil_iff, or_false] at hop
      rcases hop with rfl | rfl <;> simp only [StableHlo.unary_writes, Finset.mem_singleton] <;> exact StableHlo.devRef_ne_of_ne (by decide)),
    Pipeline.withArrays_of_ne _ c (V0 m c) _ main_v187 (by decide)]

/-- The run ends with the density feature as the host lines left it and the appearance feature at the contraction of the feature array with the weights. -/
theorem run_values : θ_run defs (onTc (τ := τ) (main (F := Ideal))) ⟨m, fun _ => 0, ρ⟩ (fun r => ∀ c : Dev nD,
      r.2.mem ((c.tc : Thread nD τ).loc main_v187) = V m c main_v187
      ∧ r.2.mem ((c.tc : Thread nD τ).loc main_v349) = Host.dotGeneral (F := Ideal) (φ₁ := .f32) (φ₂ := .f32) Cert.ReferenceIdeal.dot_S144x500000_S27x144_S500000x27_0_1_1_0_n_n none (V m c main_v345) (V m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨v, hv⟩ := V_padded m c
    refine ⟨((h c).2 main_v187 (Pipeline.mem_restRefs_of main_v187 (by decide) (by decide))).trans (tail_sigma m c),
      ((h c).2 main_v349 (Pipeline.mem_restRefs_of main_v349 (by decide) (by decide))).trans ((tail_out m c).trans ?_),
      ((h c).2 main_arg0 (Pipeline.mem_restRefs_of main_arg0 (by decide) (by decide))).trans (tail_early m (dats m) c main_arg0 (by decide) (by decide)),
      ((h c).2 main_arg1 (Pipeline.mem_restRefs_of main_arg1 (by decide) (by decide))).trans (tail_early m (dats m) c main_arg1 (by decide) (by decide)),
      ((h c).2 main_arg2 (Pipeline.mem_restRefs_of main_arg2 (by decide) (by decide))).trans (tail_early m (dats m) c main_arg2 (by decide) (by decide)),
      ((h c).2 main_arg3 (Pipeline.mem_restRefs_of main_arg3 (by decide) (by decide))).trans (tail_early m (dats m) c main_arg3 (by decide) (by decide)),
      ((h c).2 main_arg4 (Pipeline.mem_restRefs_of main_arg4 (by decide) (by decide))).trans (tail_early m (dats m) c main_arg4 (by decide) (by decide)),
      ((h c).1 1).trans (((dats m 0 c).arrAt_in 1 rfl _).trans ((A_eq m c 1).trans (V_early m c main_arg5 (by decide))))⟩
    rw [hv]
    exact Cert.Bridge.sliced_transposed_eq (V m c main_v345) v (V m c main_arg5) _ (fun d n => rfl))
    (run_main m ρ)

end Cert.KernelIdeal.Around

end
-- ==== Proof.RefPieces.lean ====
import proofs.«401645_j73761768342118_3_alg».proof.Proof.Gen.ReferenceIdeal
import Idealize.ShloMosaic.Lib.StableHlo.Run

set_option maxRecDepth 65536
set_option maxHeartbeats 4000000

noncomputable section

namespace Cert.ReferenceIdeal.Lines

open Cert.ReferenceIdeal Cert.ReferenceIdeal.Gen Idealize.ShloMosaic Idealize.ShloMosaic.TcCoe Idealize.SL.Sem Idealize.ShloMosaic.StableHlo

variable {F : FTy → Type} [FloatOps F]

abbrev q0 : List (HloOp τ sig (Elt F)) :=
  [ unary main_arg0 main_v0 (extractStridedSlice S500000x1 ![0, 0] · slices_S500000x3_S500000x1_0_0),
    reshape main_v0 main_v1 rfl shapeCasts_S500000x1_S500000,
    unary main_arg0 main_v2 (extractStridedSlice S500000x1 ![0, 0] · slices_S500000x3_S500000x1_0_0),
    reshape main_v2 main_v3 rfl shapeCasts_S500000x1_S500000,
    unary main_arg0 main_v4 (extractStridedSlice S500000x1 ![0, 1] · slices_S500000x3_S500000x1_0_1),
    reshape main_v4 main_v5 rfl shapeCasts_S500000x1_S500000,
    unary main_v1 main_v6 (broadcastInDim S1x500000 ![1] bcast_S500000_S1x500000_1),
    unary main_v3 main_v7 (broadcastInDim S1x500000 ![1] bcast_S500000_S1x500000_1),
    unary main_v5 main_v8 (broadcastInDim S1x500000 ![1] bcast_S500000_S1x500000_1),
    nary ![main_v6, main_v7, main_v8] main_v9 (fun u => concatenate S3x500000 0 [⟨S1x500000, u 0⟩, ⟨S1x500000, u 1⟩, ⟨S1x500000, u 2⟩] concatenates_S1x500000_S1x500000_S1x500000_S3x500000_d0) ]

abbrev q1 : List (HloOp τ sig (Elt F)) :=
  [ unary main_arg0 main_v10 (extractStridedSlice S500000x1 ![0, 1] · slices_S500000x3_S500000x1_0_1),
    reshape main_v10 main_v11 rfl shapeCasts_S500000x1_S500000,
    unary main_arg0 main_v12 (extractStridedSlice S500000x1 ![0, 2] · slices_S500000x3_S500000x1_0_2),
    reshape main_v12 main_v13 rfl shapeCasts_S500000x1_S500000,
    unary main_arg0 main_v14 (extractStridedSlice S500000x1 ![0, 2] · slices_S500000x3_S500000x1_0_2),
    reshape main_v14 main_v15 rfl shapeCasts_S500000x1_S500000,
    unary main_v11 main_v16 (broadcastInDim S1x500000 ![1] bcast_S500000_S1x500000_1),
    unary main_v13 main_v17 (broadcastInDim S1x500000 ![1] bcast_S500000_S1x500000_1),
    unary main_v15 main_v18 (broadcastInDim S1x500000 ![1] bcast_S500000_S1x500000_1),
    nary ![main_v16, main_v17, main_v18] main_v19 (fun u => concatenate S3x500000 0 [⟨S1x500000, u 0⟩, ⟨S1x500000, u 1⟩, ⟨S1x500000, u 2⟩] concatenates_S1x500000_S1x500000_S1x500000_S3x500000_d0) ]

abbrev q2 : List (HloOp τ sig (Elt F)) :=
  [ unary main_arg0 main_v20 (extractStridedSlice S500000x1 ![0, 2] · slices_S500000x3_S500000x1_0_2),
    reshape main_v20 main_v21 rfl shapeCasts_S500000x1_S500000,
    unary main_arg0 main_v22 (extractStridedSlice S500000x1 ![0, 1] · slices_S500000x3_S500000x1_0_1),
    reshape main_v22 main_v23 rfl shapeCasts_S500000x1_S500000,
    unary main_arg0 main_v24 (extractStridedSlice S500000x1 ![0, 0] · slices_S500000x3_S500000x1_0_0),
    reshape main_v24 main_v25 rfl shapeCasts_S500000x1_S500000,
    unary main_v21 main_v26 (broadcastInDim S1x500000 ![1] bcast_S500000_S1x500000_1),
    unary main_v23 main_v27 (broadcastInDim S1x500000 ![1] bcast_S500000_S1x500000_1),
    unary main_v25 main_v28 (broadcastInDim S1x500000 ![1] bcast_S500000_S1x500000_1),
    nary ![main_v26, main_v27, main_v28] main_v29 (fun u => concatenate S3x500000 0 [⟨S1x500000, u 0⟩, ⟨S1x500000, u 1⟩, ⟨S1x500000, u 2⟩] concatenates_S1x500000_S1x500000_S1x500000_S3x500000_d0) ]

abbrev q3 : List (HloOp τ sig (Elt F)) :=
  [ nullary main_cst (constant S_ .f32 0x3F800000#32),
    unary main_cst main_v30 (broadcastInDim S3x500000 ![] bcast_S_S3x500000),
    binary main_v9 main_v30 main_v31 addf,
    nullary main_cst_0 (constant S_ .f32 0x3F000000#32),
    unary main_cst_0 main_v32 (broadcastInDim S3x500000 ![] bcast_S_S3x500000),
    binary main_v31 main_v32 main_v33 mulf,
    nullary main_cst_1 (constant S_ .f32 0x43958000#32),
    unary main_cst_1 main_v34 (broadcastInDim S3x500000 ![] bcast_S_S3x500000),
    binary main_v33 main_v34 main_v35 mulf,
    nullary main_cst_2 (constant S_ .f32 0x3F800000#32),
    unary main_cst_2 main_v36 (broadcastInDim S3x500000 ![] bcast_S_S3x500000),
    binary main_v19 main_v36 main_v37 addf,
    nullary main_cst_3 (constant S_ .f32 0x3F000000#32),
    unary main_cst_3 main_v38 (broadcastInDim S3x500000 ![] bcast_S_S3x500000),
    binary main_v37 main_v38 main_v39 mulf,
    nullary main_cst_4 (constant S_ .f32 0x43958000#32),
    unary main_cst_4 main_v40 (broadcastInDim S3x500000 ![] bcast_S_S3x500000),
    binary main_v39 main_v40 main_v41 mulf,
    unary main_v35 main_v42 Host.floor,
    nullary main_c (constantI S_ 32 0#32),
    nullary main_c_5 (constantI S_ 32 299#32) ]

abbrev q4 : List (HloOp τ sig (Elt F)) :=
  [ TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S3x500000, .f32⟩) main_call0_v1) (broadcastInDim S3x500000 ![] bcast_S_S3x500000),
    TRef.binary (TRef.of (T := ⟨S3x500000, .f32⟩) main_call0_v1) (TRef.of (T := ⟨S3x500000, .f32⟩) main_v42) (TRef.of (T := ⟨S3x500000, .f32⟩) main_call0_v2) maximumf,
    TRef.unary (TRef.of (T := ⟨S_, .i32⟩) main_c_5) (TRef.of (T := ⟨S_, .f32⟩) main_call0_v3) (sitofp .f32),
    TRef.unary (TRef.of (T := ⟨S_, .f32⟩) main_call0_v3) (TRef.of (T := ⟨S3x500000, .f32⟩) main_call0_v4) (broadcastInDim S3x500000 ![] bcast_S_S3x500000),
    TRef.binary (TRef.of (T := ⟨S3x500000, .f32⟩) main_call0_v4) (TRef.of (T := ⟨S3x500000, .f32⟩) main_call0_v2) (TRef.of (T := ⟨S3x500000, .f32⟩) main_v43) minimumf ]

abbrev q5 : List (HloOp τ sig (Elt F)) :=
  [ unary main_v41 main_v44 Host.floor,
    nullary main_c_6 (constantI S_ 32 0#32),
    nullary main_c_7 (constantI S_ 32 299#32) ]

abbrev q6 : List (HloOp τ sig (Elt F)) :=
  [ TRef.unary (TRef.of (T := ⟨S_, .i32⟩) main_c_6) (TRef.of (T := ⟨S_, .f32⟩) main_call1_v0) (sitofp .f32),
    TRef.unary (TRef.of (T := ⟨S_, .f32⟩) main_call1_v0) (TRef.of (T := ⟨S3x500000, .f32⟩) main_call1_v1) (broadcastInDim S3x500000 ![] bcast_S_S3x500000),
    TRef.binary (TRef.of (T := ⟨S3x500000, .f32⟩) main_call1_v1) (TRef.of (T := ⟨S3x500000, .f32⟩) main_v44) (TRef.of (T := ⟨S3x500000, .f32⟩) main_call1_v2) maximumf,
    TRef.unary (TRef.of (T := ⟨S_, .i32⟩) main_c_7) (TRef.of (T := ⟨S_, .f32⟩) main_call1_v3) (sitofp .f32),
    TRef.unary (TRef.of (T := ⟨S_, .f32⟩) main_call1_v3) (TRef.of (T := ⟨S3x500000, .f32⟩) main_call1_v4) (broadcastInDim S3x500000 ![] bcast_S_S3x500000),
    TRef.binary (TRef.of (T := ⟨S3x500000, .f32⟩) main_call1_v4) (TRef.of (T := ⟨S3x500000, .f32⟩) main_call1_v2) (TRef.of (T := ⟨S3x500000, .f32⟩) main_v45) minimumf ]

abbrev q7 : List (HloOp τ sig (Elt F)) :=
  [ nullary main_cst_8 (constant S_ .f32 0x3F800000#32),
    unary main_cst_8 main_v46 (broadcastInDim S3x500000 ![] bcast_S_S3x500000),
    binary main_v43 main_v46 main_v47 addf,
    nullary main_c_9 (constantI S_ 32 0#32),
    nullary main_c_10 (constantI S_ 32 299#32) ]

abbrev q8 : List (HloOp τ sig (Elt F)) :=
  [ TRef.unary (TRef.of (T := ⟨S_, .i32⟩) main_c_9) (TRef.of (T := ⟨S_, .f32⟩) main_call2_v0) (sitofp .f32),
    TRef.unary (TRef.of (T := ⟨S_, .f32⟩) main_call2_v0) (TRef.of (T := ⟨S3x500000, .f32⟩) main_call2_v1) (broadcastInDim S3x500000 ![] bcast_S_S3x500000),
    TRef.binary (TRef.of (T := ⟨S3x500000, .f32⟩) main_call2_v1) (TRef.of (T := ⟨S3x500000, .f32⟩) main_v47) (TRef.of (T := ⟨S3x500000, .f32⟩) main_call2_v2) maximumf,
    TRef.unary (TRef.of (T := ⟨S_, .i32⟩) main_c_10) (TRef.of (T := ⟨S_, .f32⟩) main_call2_v3) (sitofp .f32),
    TRef.unary (TRef.of (T := ⟨S_, .f32⟩) main_call2_v3) (TRef.of (T := ⟨S3x500000, .f32⟩) main_call2_v4) (broadcastInDim S3x500000 ![] bcast_S_S3x500000),
    TRef.binary (TRef.of (T := ⟨S3x500000, .f32⟩) main_call2_v4) (TRef.of (T := ⟨S3x500000, .f32⟩) main_call2_v2) (TRef.of (T := ⟨S3x500000, .f32⟩) main_v48) minimumf ]

abbrev q9 : List (HloOp τ sig (Elt F)) :=
  [ nullary main_cst_11 (constant S_ .f32 0x3F800000#32),
    unary main_cst_11 main_v49 (broadcastInDim S3x500000 ![] bcast_S_S3x500000),
    binary main_v45 main_v49 main_v50 addf,
    nullary main_c_12 (constantI S_ 32 0#32),
    nullary main_c_13 (constantI S_ 32 299#32) ]

abbrev q10 : List (HloOp τ sig (Elt F)) :=
  [ TRef.unary (TRef.of (T := ⟨S_, .i32⟩) main_c_12) (TRef.of (T := ⟨S_, .f32⟩) main_call3_v0) (sitofp .f32),
    TRef.unary (TRef.of (T := ⟨S_, .f32⟩) main_call3_v0) (TRef.of (T := ⟨S3x500000, .f32⟩) main_call3_v1) (broadcastInDim S3x500000 ![] bcast_S_S3x500000),
    TRef.binary (TRef.of (T := ⟨S3x500000, .f32⟩) main_call3_v1) (TRef.of (T := ⟨S3x500000, .f32⟩) main_v50) (TRef.of (T := ⟨S3x500000, .f32⟩) main_call3_v2) maximumf,
    TRef.unary (TRef.of (T := ⟨S_, .i32⟩) main_c_13) (TRef.of (T := ⟨S_, .f32⟩) main_call3_v3) (sitofp .f32),
    TRef.unary (TRef.of (T := ⟨S_, .f32⟩) main_call3_v3) (TRef.of (T := ⟨S3x500000, .f32⟩) main_call3_v4) (broadcastInDim S3x500000 ![] bcast_S_S3x500000),
    TRef.binary (TRef.of (T := ⟨S3x500000, .f32⟩) main_call3_v4) (TRef.of (T := ⟨S3x500000, .f32⟩) main_call3_v2) (TRef.of (T := ⟨S3x500000, .f32⟩) main_v51) minimumf ]

abbrev q11 : List (HloOp τ sig (Elt F)) :=
  [ binary main_v35 main_v43 main_v52 subf,
    binary main_v41 main_v45 main_v53 subf,
    unary main_v43 main_v54 (fptosi 32),
    unary main_v48 main_v55 (fptosi 32),
    unary main_v45 main_v56 (fptosi 32),
    unary main_v51 main_v57 (fptosi 32),
    nullary main_c_14 (constantI S_ 32 0#32),
    unary main_c_14 main_v58 (broadcastInDim S3x500000 ![] bcast_S_S3x500000),
    binary main_v56 main_v58 main_v59 (cmpi .slt),
    nullary main_c_15 (constantI S_ 32 300#32),
    unary main_c_15 main_v60 (broadcastInDim S3x500000 ![] bcast_S_S3x500000),
    binary main_v56 main_v60 main_v61 addi,
    ternary main_v59 main_v61 main_v56 main_v62 select,
    nullary main_c_16 (constantI S_ 32 0#32),
    unary main_c_16 main_v63 (broadcastInDim S3x500000 ![] bcast_S_S3x500000),
    binary main_v54 main_v63 main_v64 (cmpi .slt),
    nullary main_c_17 (constantI S_ 32 300#32),
    unary main_c_17 main_v65 (broadcastInDim S3x500000 ![] bcast_S_S3x500000),
    binary main_v54 main_v65 main_v66 addi,
    ternary main_v64 main_v66 main_v54 main_v67 select,
    unary main_v62 main_v68 (broadcastInDim S3x500000x1 ![0, 1] bcast_S3x500000_S3x500000x1_0_1),
    unary main_v67 main_v69 (broadcastInDim S3x500000x1 ![0, 1] bcast_S3x500000_S3x500000x1_0_1) ]

abbrev q12 : List (HloOp τ sig (Elt F)) :=
  [ binary main_v68 main_v69 main_v70 (fun a b => concatenate S3x500000x2 2 [⟨S3x500000x1, a⟩, ⟨S3x500000x1, b⟩] concatenates_S3x500000x1_S3x500000x1_S3x500000x2_d2),
    binary main_arg1 main_v70 main_v71 (fun x i => Host.gather gather_S3x16x300x300_S3x500000x2_S3x16x500000_1_23_0_0_23_2_11611 x i) ]

abbrev q13 : List (HloOp τ sig (Elt F)) :=
  [ nullary main_c_18 (constantI S_ 32 0#32),
    unary main_c_18 main_v72 (broadcastInDim S3x500000 ![] bcast_S_S3x500000),
    binary main_v56 main_v72 main_v73 (cmpi .slt),
    nullary main_c_19 (constantI S_ 32 300#32),
    unary main_c_19 main_v74 (broadcastInDim S3x500000 ![] bcast_S_S3x500000),
    binary main_v56 main_v74 main_v75 addi,
    ternary main_v73 main_v75 main_v56 main_v76 select,
    nullary main_c_20 (constantI S_ 32 0#32),
    unary main_c_20 main_v77 (broadcastInDim S3x500000 ![] bcast_S_S3x500000),
    binary main_v55 main_v77 main_v78 (cmpi .slt),
    nullary main_c_21 (constantI S_ 32 300#32),
    unary main_c_21 main_v79 (broadcastInDim S3x500000 ![] bcast_S_S3x500000),
    binary main_v55 main_v79 main_v80 addi,
    ternary main_v78 main_v80 main_v55 main_v81 select,
    unary main_v76 main_v82 (broadcastInDim S3x500000x1 ![0, 1] bcast_S3x500000_S3x500000x1_0_1),
    unary main_v81 main_v83 (broadcastInDim S3x500000x1 ![0, 1] bcast_S3x500000_S3x500000x1_0_1) ]

abbrev q14 : List (HloOp τ sig (Elt F)) :=
  [ binary main_v82 main_v83 main_v84 (fun a b => concatenate S3x500000x2 2 [⟨S3x500000x1, a⟩, ⟨S3x500000x1, b⟩] concatenates_S3x500000x1_S3x500000x1_S3x500000x2_d2),
    binary main_arg1 main_v84 main_v85 (fun x i => Host.gather gather_S3x16x300x300_S3x500000x2_S3x16x500000_1_23_0_0_23_2_11611 x i) ]

abbrev q15 : List (HloOp τ sig (Elt F)) :=
  [ nullary main_c_22 (constantI S_ 32 0#32),
    unary main_c_22 main_v86 (broadcastInDim S3x500000 ![] bcast_S_S3x500000),
    binary main_v57 main_v86 main_v87 (cmpi .slt),
    nullary main_c_23 (constantI S_ 32 300#32),
    unary main_c_23 main_v88 (broadcastInDim S3x500000 ![] bcast_S_S3x500000),
    binary main_v57 main_v88 main_v89 addi,
    ternary main_v87 main_v89 main_v57 main_v90 select,
    nullary main_c_24 (constantI S_ 32 0#32),
    unary main_c_24 main_v91 (broadcastInDim S3x500000 ![] bcast_S_S3x500000),
    binary main_v54 main_v91 main_v92 (cmpi .slt),
    nullary main_c_25 (constantI S_ 32 300#32),
    unary main_c_25 main_v93 (broadcastInDim S3x500000 ![] bcast_S_S3x500000),
    binary main_v54 main_v93 main_v94 addi,
    ternary main_v92 main_v94 main_v54 main_v95 select,
    unary main_v90 main_v96 (broadcastInDim S3x500000x1 ![0, 1] bcast_S3x500000_S3x500000x1_0_1),
    unary main_v95 main_v97 (broadcastInDim S3x500000x1 ![0, 1] bcast_S3x500000_S3x500000x1_0_1) ]

abbrev q16 : List (HloOp τ sig (Elt F)) :=
  [ binary main_v96 main_v97 main_v98 (fun a b => concatenate S3x500000x2 2 [⟨S3x500000x1, a⟩, ⟨S3x500000x1, b⟩] concatenates_S3x500000x1_S3x500000x1_S3x500000x2_d2),
    binary main_arg1 main_v98 main_v99 (fun x i => Host.gather gather_S3x16x300x300_S3x500000x2_S3x16x500000_1_23_0_0_23_2_11611 x i) ]

abbrev q17 : List (HloOp τ sig (Elt F)) :=
  [ nullary main_c_26 (constantI S_ 32 0#32),
    unary main_c_26 main_v100 (broadcastInDim S3x500000 ![] bcast_S_S3x500000),
    binary main_v57 main_v100 main_v101 (cmpi .slt),
    nullary main_c_27 (constantI S_ 32 300#32),
    unary main_c_27 main_v102 (broadcastInDim S3x500000 ![] bcast_S_S3x500000),
    binary main_v57 main_v102 main_v103 addi,
    ternary main_v101 main_v103 main_v57 main_v104 select,
    nullary main_c_28 (constantI S_ 32 0#32),
    unary main_c_28 main_v105 (broadcastInDim S3x500000 ![] bcast_S_S3x500000),
    binary main_v55 main_v105 main_v106 (cmpi .slt),
    nullary main_c_29 (constantI S_ 32 300#32),
    unary main_c_29 main_v107 (broadcastInDim S3x500000 ![] bcast_S_S3x500000),
    binary main_v55 main_v107 main_v108 addi,
    ternary main_v106 main_v108 main_v55 main_v109 select,
    unary main_v104 main_v110 (broadcastInDim S3x500000x1 ![0, 1] bcast_S3x500000_S3x500000x1_0_1),
    unary main_v109 main_v111 (broadcastInDim S3x500000x1 ![0, 1] bcast_S3x500000_S3x500000x1_0_1) ]

abbrev q18 : List (HloOp τ sig (Elt F)) :=
  [ binary main_v110 main_v111 main_v112 (fun a b => concatenate S3x500000x2 2 [⟨S3x500000x1, a⟩, ⟨S3x500000x1, b⟩] concatenates_S3x500000x1_S3x500000x1_S3x500000x2_d2),
    binary main_arg1 main_v112 main_v113 (fun x i => Host.gather gather_S3x16x300x300_S3x500000x2_S3x16x500000_1_23_0_0_23_2_11611 x i) ]

abbrev q19 : List (HloOp τ sig (Elt F)) :=
  [ nullary main_cst_30 (constant S_ .f32 0x3F800000#32),
    unary main_cst_30 main_v114 (broadcastInDim S3x500000 ![] bcast_S_S3x500000),
    binary main_v114 main_v52 main_v115 subf,
    unary main_v115 main_v116 (broadcastInDim S3x1x500000 ![0, 2] bcast_S3x500000_S3x1x500000_0_2),
    unary main_v116 main_v117 (broadcastInDim S3x16x500000 ![0, 1, 2] bcast_S3x1x500000_S3x16x500000_0_1_2),
    binary main_v71 main_v117 main_v118 mulf,
    nullary main_cst_31 (constant S_ .f32 0x3F800000#32),
    unary main_cst_31 main_v119 (broadcastInDim S3x500000 ![] bcast_S_S3x500000),
    binary main_v119 main_v53 main_v120 subf,
    unary main_v120 main_v121 (broadcastInDim S3x1x500000 ![0, 2] bcast_S3x500000_S3x1x500000_0_2),
    unary main_v121 main_v122 (broadcastInDim S3x16x500000 ![0, 1, 2] bcast_S3x1x500000_S3x16x500000_0_1_2),
    binary main_v118 main_v122 main_v123 mulf,
    unary main_v52 main_v124 (broadcastInDim S3x1x500000 ![0, 2] bcast_S3x500000_S3x1x500000_0_2),
    unary main_v124 main_v125 (broadcastInDim S3x16x500000 ![0, 1, 2] bcast_S3x1x500000_S3x16x500000_0_1_2),
    binary main_v85 main_v125 main_v126 mulf,
    nullary main_cst_32 (constant S_ .f32 0x3F800000#32),
    unary main_cst_32 main_v127 (broadcastInDim S3x500000 ![] bcast_S_S3x500000),
    binary main_v127 main_v53 main_v128 subf,
    unary main_v128 main_v129 (broadcastInDim S3x1x500000 ![0, 2] bcast_S3x500000_S3x1x500000_0_2),
    unary main_v129 main_v130 (broadcastInDim S3x16x500000 ![0, 1, 2] bcast_S3x1x500000_S3x16x500000_0_1_2),
    binary main_v126 main_v130 main_v131 mulf,
    binary main_v123 main_v131 main_v132 addf,
    nullary main_cst_33 (constant S_ .f32 0x3F800000#32),
    unary main_cst_33 main_v133 (broadcastInDim S3x500000 ![] bcast_S_S3x500000),
    binary main_v133 main_v52 main_v134 subf,
    unary main_v134 main_v135 (broadcastInDim S3x1x500000 ![0, 2] bcast_S3x500000_S3x1x500000_0_2) ]

abbrev q20 : List (HloOp τ sig (Elt F)) :=
  [ unary main_v135 main_v136 (broadcastInDim S3x16x500000 ![0, 1, 2] bcast_S3x1x500000_S3x16x500000_0_1_2),
    binary main_v99 main_v136 main_v137 mulf,
    unary main_v53 main_v138 (broadcastInDim S3x1x500000 ![0, 2] bcast_S3x500000_S3x1x500000_0_2),
    unary main_v138 main_v139 (broadcastInDim S3x16x500000 ![0, 1, 2] bcast_S3x1x500000_S3x16x500000_0_1_2),
    binary main_v137 main_v139 main_v140 mulf,
    binary main_v132 main_v140 main_v141 addf,
    unary main_v52 main_v142 (broadcastInDim S3x1x500000 ![0, 2] bcast_S3x500000_S3x1x500000_0_2),
    unary main_v142 main_v143 (broadcastInDim S3x16x500000 ![0, 1, 2] bcast_S3x1x500000_S3x16x500000_0_1_2),
    binary main_v113 main_v143 main_v144 mulf,
    unary main_v53 main_v145 (broadcastInDim S3x1x500000 ![0, 2] bcast_S3x500000_S3x1x500000_0_2),
    unary main_v145 main_v146 (broadcastInDim S3x16x500000 ![0, 1, 2] bcast_S3x1x500000_S3x16x500000_0_1_2),
    binary main_v144 main_v146 main_v147 mulf,
    binary main_v141 main_v147 main_v148 addf,
    nullary main_cst_34 (constant S_ .f32 0x3F800000#32),
    unary main_cst_34 main_v149 (broadcastInDim S3x500000 ![] bcast_S_S3x500000),
    binary main_v29 main_v149 main_v150 addf,
    nullary main_cst_35 (constant S_ .f32 0x3F000000#32),
    unary main_cst_35 main_v151 (broadcastInDim S3x500000 ![] bcast_S_S3x500000),
    binary main_v150 main_v151 main_v152 mulf,
    nullary main_cst_36 (constant S_ .f32 0x43958000#32),
    unary main_cst_36 main_v153 (broadcastInDim S3x500000 ![] bcast_S_S3x500000),
    binary main_v152 main_v153 main_v154 mulf,
    unary main_v154 main_v155 Host.floor,
    nullary main_c_37 (constantI S_ 32 0#32),
    nullary main_c_38 (constantI S_ 32 299#32) ]

abbrev q21 : List (HloOp τ sig (Elt F)) :=
  [ TRef.unary (TRef.of (T := ⟨S_, .i32⟩) main_c_37) (TRef.of (T := ⟨S_, .f32⟩) main_call4_v0) (sitofp .f32),
    TRef.unary (TRef.of (T := ⟨S_, .f32⟩) main_call4_v0) (TRef.of (T := ⟨S3x500000, .f32⟩) main_call4_v1) (broadcastInDim S3x500000 ![] bcast_S_S3x500000),
    TRef.binary (TRef.of (T := ⟨S3x500000, .f32⟩) main_call4_v1) (TRef.of (T := ⟨S3x500000, .f32⟩) main_v155) (TRef.of (T := ⟨S3x500000, .f32⟩) main_call4_v2) maximumf,
    TRef.unary (TRef.of (T := ⟨S_, .i32⟩) main_c_38) (TRef.of (T := ⟨S_, .f32⟩) main_call4_v3) (sitofp .f32),
    TRef.unary (TRef.of (T := ⟨S_, .f32⟩) main_call4_v3) (TRef.of (T := ⟨S3x500000, .f32⟩) main_call4_v4) (broadcastInDim S3x500000 ![] bcast_S_S3x500000),
    TRef.binary (TRef.of (T := ⟨S3x500000, .f32⟩) main_call4_v4) (TRef.of (T := ⟨S3x500000, .f32⟩) main_call4_v2) (TRef.of (T := ⟨S3x500000, .f32⟩) main_v156) minimumf ]

abbrev q22 : List (HloOp τ sig (Elt F)) :=
  [ nullary main_cst_39 (constant S_ .f32 0x3F800000#32),
    unary main_cst_39 main_v157 (broadcastInDim S3x500000 ![] bcast_S_S3x500000),
    binary main_v156 main_v157 main_v158 addf,
    nullary main_c_40 (constantI S_ 32 0#32),
    nullary main_c_41 (constantI S_ 32 299#32) ]

abbrev q23 : List (HloOp τ sig (Elt F)) :=
  [ TRef.unary (TRef.of (T := ⟨S_, .i32⟩) main_c_40) (TRef.of (T := ⟨S_, .f32⟩) main_call5_v0) (sitofp .f32),
    TRef.unary (TRef.of (T := ⟨S_, .f32⟩) main_call5_v0) (TRef.of (T := ⟨S3x500000, .f32⟩) main_call5_v1) (broadcastInDim S3x500000 ![] bcast_S_S3x500000),
    TRef.binary (TRef.of (T := ⟨S3x500000, .f32⟩) main_call5_v1) (TRef.of (T := ⟨S3x500000, .f32⟩) main_v158) (TRef.of (T := ⟨S3x500000, .f32⟩) main_call5_v2) maximumf,
    TRef.unary (TRef.of (T := ⟨S_, .i32⟩) main_c_41) (TRef.of (T := ⟨S_, .f32⟩) main_call5_v3) (sitofp .f32),
    TRef.unary (TRef.of (T := ⟨S_, .f32⟩) main_call5_v3) (TRef.of (T := ⟨S3x500000, .f32⟩) main_call5_v4) (broadcastInDim S3x500000 ![] bcast_S_S3x500000),
    TRef.binary (TRef.of (T := ⟨S3x500000, .f32⟩) main_call5_v4) (TRef.of (T := ⟨S3x500000, .f32⟩) main_call5_v2) (TRef.of (T := ⟨S3x500000, .f32⟩) main_v159) minimumf ]

abbrev q24 : List (HloOp τ sig (Elt F)) :=
  [ binary main_v154 main_v156 main_v160 subf,
    unary main_v156 main_v161 (fptosi 32),
    nullary main_c_42 (constantI S_ 32 0#32),
    unary main_c_42 main_v162 (broadcastInDim S3x500000 ![] bcast_S_S3x500000),
    binary main_v161 main_v162 main_v163 (cmpi .slt),
    nullary main_c_43 (constantI S_ 32 300#32),
    unary main_c_43 main_v164 (broadcastInDim S3x500000 ![] bcast_S_S3x500000),
    binary main_v161 main_v164 main_v165 addi,
    ternary main_v163 main_v165 main_v161 main_v166 select,
    unary main_v166 main_v167 (broadcastInDim S3x500000x1 ![0, 1] bcast_S3x500000_S3x500000x1_0_1),
    binary main_arg2 main_v167 main_v168 (fun x i => Host.gather gather_S3x16x300_S3x500000x1_S3x16x500000_1_2_0_0_2_2_1161 x i),
    unary main_v159 main_v169 (fptosi 32),
    nullary main_c_44 (constantI S_ 32 0#32),
    unary main_c_44 main_v170 (broadcastInDim S3x500000 ![] bcast_S_S3x500000),
    binary main_v169 main_v170 main_v171 (cmpi .slt),
    nullary main_c_45 (constantI S_ 32 300#32),
    unary main_c_45 main_v172 (broadcastInDim S3x500000 ![] bcast_S_S3x500000),
    binary main_v169 main_v172 main_v173 addi,
    ternary main_v171 main_v173 main_v169 main_v174 select,
    unary main_v174 main_v175 (broadcastInDim S3x500000x1 ![0, 1] bcast_S3x500000_S3x500000x1_0_1),
    binary main_arg2 main_v175 main_v176 (fun x i => Host.gather gather_S3x16x300_S3x500000x1_S3x16x500000_1_2_0_0_2_2_1161 x i),
    nullary main_cst_46 (constant S_ .f32 0x3F800000#32),
    unary main_cst_46 main_v177 (broadcastInDim S3x500000 ![] bcast_S_S3x500000),
    binary main_v177 main_v160 main_v178 subf,
    unary main_v178 main_v179 (broadcastInDim S3x1x500000 ![0, 2] bcast_S3x500000_S3x1x500000_0_2),
    unary main_v179 main_v180 (broadcastInDim S3x16x500000 ![0, 1, 2] bcast_S3x1x500000_S3x16x500000_0_1_2),
    binary main_v168 main_v180 main_v181 mulf,
    unary main_v160 main_v182 (broadcastInDim S3x1x500000 ![0, 2] bcast_S3x500000_S3x1x500000_0_2),
    unary main_v182 main_v183 (broadcastInDim S3x16x500000 ![0, 1, 2] bcast_S3x1x500000_S3x16x500000_0_1_2),
    binary main_v176 main_v183 main_v184 mulf,
    binary main_v181 main_v184 main_v185 addf,
    binary main_v148 main_v185 main_v186 mulf,
    nullary main_cst_47 (constant S_ .f32 0x00000000#32),
    binary main_v186 main_cst_47 main_v187 (fun x v => Host.reduceAdd x v reducesTo_S3x16x500000_S500000_d0_1 h_S_),
    nullary main_cst_48 (constant S_ .f32 0x3F800000#32),
    unary main_cst_48 main_v188 (broadcastInDim S3x500000 ![] bcast_S_S3x500000),
    binary main_v9 main_v188 main_v189 addf,
    nullary main_cst_49 (constant S_ .f32 0x3F000000#32),
    unary main_cst_49 main_v190 (broadcastInDim S3x500000 ![] bcast_S_S3x500000),
    binary main_v189 main_v190 main_v191 mulf,
    nullary main_cst_50 (constant S_ .f32 0x43958000#32),
    unary main_cst_50 main_v192 (broadcastInDim S3x500000 ![] bcast_S_S3x500000),
    binary main_v191 main_v192 main_v193 mulf,
    nullary main_cst_51 (constant S_ .f32 0x3F800000#32),
    unary main_cst_51 main_v194 (broadcastInDim S3x500000 ![] bcast_S_S3x500000),
    binary main_v19 main_v194 main_v195 addf,
    nullary main_cst_52 (constant S_ .f32 0x3F000000#32),
    unary main_cst_52 main_v196 (broadcastInDim S3x500000 ![] bcast_S_S3x500000),
    binary main_v195 main_v196 main_v197 mulf,
    nullary main_cst_53 (constant S_ .f32 0x43958000#32),
    unary main_cst_53 main_v198 (broadcastInDim S3x500000 ![] bcast_S_S3x500000),
    binary main_v197 main_v198 main_v199 mulf,
    unary main_v193 main_v200 Host.floor,
    nullary main_c_54 (constantI S_ 32 0#32),
    nullary main_c_55 (constantI S_ 32 299#32) ]

abbrev q25 : List (HloOp τ sig (Elt F)) :=
  [ TRef.unary (TRef.of (T := ⟨S_, .i32⟩) main_c_54) (TRef.of (T := ⟨S_, .f32⟩) main_call6_v0) (sitofp .f32),
    TRef.unary (TRef.of (T := ⟨S_, .f32⟩) main_call6_v0) (TRef.of (T := ⟨S3x500000, .f32⟩) main_call6_v1) (broadcastInDim S3x500000 ![] bcast_S_S3x500000),
    TRef.binary (TRef.of (T := ⟨S3x500000, .f32⟩) main_call6_v1) (TRef.of (T := ⟨S3x500000, .f32⟩) main_v200) (TRef.of (T := ⟨S3x500000, .f32⟩) main_call6_v2) maximumf,
    TRef.unary (TRef.of (T := ⟨S_, .i32⟩) main_c_55) (TRef.of (T := ⟨S_, .f32⟩) main_call6_v3) (sitofp .f32),
    TRef.unary (TRef.of (T := ⟨S_, .f32⟩) main_call6_v3) (TRef.of (T := ⟨S3x500000, .f32⟩) main_call6_v4) (broadcastInDim S3x500000 ![] bcast_S_S3x500000),
    TRef.binary (TRef.of (T := ⟨S3x500000, .f32⟩) main_call6_v4) (TRef.of (T := ⟨S3x500000, .f32⟩) main_call6_v2) (TRef.of (T := ⟨S3x500000, .f32⟩) main_v201) minimumf ]

abbrev q26 : List (HloOp τ sig (Elt F)) :=
  [ unary main_v199 main_v202 Host.floor,
    nullary main_c_56 (constantI S_ 32 0#32),
    nullary main_c_57 (constantI S_ 32 299#32) ]

abbrev q27 : List (HloOp τ sig (Elt F)) :=
  [ TRef.unary (TRef.of (T := ⟨S_, .i32⟩) main_c_56) (TRef.of (T := ⟨S_, .f32⟩) main_call7_v0) (sitofp .f32),
    TRef.unary (TRef.of (T := ⟨S_, .f32⟩) main_call7_v0) (TRef.of (T := ⟨S3x500000, .f32⟩) main_call7_v1) (broadcastInDim S3x500000 ![] bcast_S_S3x500000),
    TRef.binary (TRef.of (T := ⟨S3x500000, .f32⟩) main_call7_v1) (TRef.of (T := ⟨S3x500000, .f32⟩) main_v202) (TRef.of (T := ⟨S3x500000, .f32⟩) main_call7_v2) maximumf,
    TRef.unary (TRef.of (T := ⟨S_, .i32⟩) main_c_57) (TRef.of (T := ⟨S_, .f32⟩) main_call7_v3) (sitofp .f32),
    TRef.unary (TRef.of (T := ⟨S_, .f32⟩) main_call7_v3) (TRef.of (T := ⟨S3x500000, .f32⟩) main_call7_v4) (broadcastInDim S3x500000 ![] bcast_S_S3x500000),
    TRef.binary (TRef.of (T := ⟨S3x500000, .f32⟩) main_call7_v4) (TRef.of (T := ⟨S3x500000, .f32⟩) main_call7_v2) (TRef.of (T := ⟨S3x500000, .f32⟩) main_v203) minimumf ]

abbrev q28 : List (HloOp τ sig (Elt F)) :=
  [ nullary main_cst_58 (constant S_ .f32 0x3F800000#32),
    unary main_cst_58 main_v204 (broadcastInDim S3x500000 ![] bcast_S_S3x500000),
    binary main_v201 main_v204 main_v205 addf,
    nullary main_c_59 (constantI S_ 32 0#32),
    nullary main_c_60 (constantI S_ 32 299#32) ]

abbrev q29 : List (HloOp τ sig (Elt F)) :=
  [ TRef.unary (TRef.of (T := ⟨S_, .i32⟩) main_c_59) (TRef.of (T := ⟨S_, .f32⟩) main_call8_v0) (sitofp .f32),
    TRef.unary (TRef.of (T := ⟨S_, .f32⟩) main_call8_v0) (TRef.of (T := ⟨S3x500000, .f32⟩) main_call8_v1) (broadcastInDim S3x500000 ![] bcast_S_S3x500000),
    TRef.binary (TRef.of (T := ⟨S3x500000, .f32⟩) main_call8_v1) (TRef.of (T := ⟨S3x500000, .f32⟩) main_v205) (TRef.of (T := ⟨S3x500000, .f32⟩) main_call8_v2) maximumf,
    TRef.unary (TRef.of (T := ⟨S_, .i32⟩) main_c_60) (TRef.of (T := ⟨S_, .f32⟩) main_call8_v3) (sitofp .f32),
    TRef.unary (TRef.of (T := ⟨S_, .f32⟩) main_call8_v3) (TRef.of (T := ⟨S3x500000, .f32⟩) main_call8_v4) (broadcastInDim S3x500000 ![] bcast_S_S3x500000),
    TRef.binary (TRef.of (T := ⟨S3x500000, .f32⟩) main_call8_v4) (TRef.of (T := ⟨S3x500000, .f32⟩) main_call8_v2) (TRef.of (T := ⟨S3x500000, .f32⟩) main_v206) minimumf ]

abbrev q30 : List (HloOp τ sig (Elt F)) :=
  [ nullary main_cst_61 (constant S_ .f32 0x3F800000#32),
    unary main_cst_61 main_v207 (broadcastInDim S3x500000 ![] bcast_S_S3x500000),
    binary main_v203 main_v207 main_v208 addf,
    nullary main_c_62 (constantI S_ 32 0#32),
    nullary main_c_63 (constantI S_ 32 299#32) ]

abbrev q31 : List (HloOp τ sig (Elt F)) :=
  [ TRef.unary (TRef.of (T := ⟨S_, .i32⟩) main_c_62) (TRef.of (T := ⟨S_, .f32⟩) main_call9_v0) (sitofp .f32),
    TRef.unary (TRef.of (T := ⟨S_, .f32⟩) main_call9_v0) (TRef.of (T := ⟨S3x500000, .f32⟩) main_call9_v1) (broadcastInDim S3x500000 ![] bcast_S_S3x500000),
    TRef.binary (TRef.of (T := ⟨S3x500000, .f32⟩) main_call9_v1) (TRef.of (T := ⟨S3x500000, .f32⟩) main_v208) (TRef.of (T := ⟨S3x500000, .f32⟩) main_call9_v2) maximumf,
    TRef.unary (TRef.of (T := ⟨S_, .i32⟩) main_c_63) (TRef.of (T := ⟨S_, .f32⟩) main_call9_v3) (sitofp .f32),
    TRef.unary (TRef.of (T := ⟨S_, .f32⟩) main_call9_v3) (TRef.of (T := ⟨S3x500000, .f32⟩) main_call9_v4) (broadcastInDim S3x500000 ![] bcast_S_S3x500000),
    TRef.binary (TRef.of (T := ⟨S3x500000, .f32⟩) main_call9_v4) (TRef.of (T := ⟨S3x500000, .f32⟩) main_call9_v2) (TRef.of (T := ⟨S3x500000, .f32⟩) main_v209) minimumf ]

abbrev q32 : List (HloOp τ sig (Elt F)) :=
  [ binary main_v193 main_v201 main_v210 subf,
    binary main_v199 main_v203 main_v211 subf,
    unary main_v201 main_v212 (fptosi 32),
    unary main_v206 main_v213 (fptosi 32),
    unary main_v203 main_v214 (fptosi 32),
    unary main_v209 main_v215 (fptosi 32),
    nullary main_c_64 (constantI S_ 32 0#32),
    unary main_c_64 main_v216 (broadcastInDim S3x500000 ![] bcast_S_S3x500000),
    binary main_v214 main_v216 main_v217 (cmpi .slt),
    nullary main_c_65 (constantI S_ 32 300#32),
    unary main_c_65 main_v218 (broadcastInDim S3x500000 ![] bcast_S_S3x500000),
    binary main_v214 main_v218 main_v219 addi,
    ternary main_v217 main_v219 main_v214 main_v220 select,
    nullary main_c_66 (constantI S_ 32 0#32),
    unary main_c_66 main_v221 (broadcastInDim S3x500000 ![] bcast_S_S3x500000),
    binary main_v212 main_v221 main_v222 (cmpi .slt),
    nullary main_c_67 (constantI S_ 32 300#32),
    unary main_c_67 main_v223 (broadcastInDim S3x500000 ![] bcast_S_S3x500000),
    binary main_v212 main_v223 main_v224 addi,
    ternary main_v222 main_v224 main_v212 main_v225 select,
    unary main_v220 main_v226 (broadcastInDim S3x500000x1 ![0, 1] bcast_S3x500000_S3x500000x1_0_1),
    unary main_v225 main_v227 (broadcastInDim S3x500000x1 ![0, 1] bcast_S3x500000_S3x500000x1_0_1) ]

abbrev q33 : List (HloOp τ sig (Elt F)) :=
  [ binary main_v226 main_v227 main_v228 (fun a b => concatenate S3x500000x2 2 [⟨S3x500000x1, a⟩, ⟨S3x500000x1, b⟩] concatenates_S3x500000x1_S3x500000x1_S3x500000x2_d2),
    binary main_arg3 main_v228 main_v229 (fun x i => Host.gather gather_S3x48x300x300_S3x500000x2_S3x48x500000_1_23_0_0_23_2_14811 x i) ]

abbrev q34 : List (HloOp τ sig (Elt F)) :=
  [ nullary main_c_68 (constantI S_ 32 0#32),
    unary main_c_68 main_v230 (broadcastInDim S3x500000 ![] bcast_S_S3x500000),
    binary main_v214 main_v230 main_v231 (cmpi .slt),
    nullary main_c_69 (constantI S_ 32 300#32),
    unary main_c_69 main_v232 (broadcastInDim S3x500000 ![] bcast_S_S3x500000),
    binary main_v214 main_v232 main_v233 addi,
    ternary main_v231 main_v233 main_v214 main_v234 select,
    nullary main_c_70 (constantI S_ 32 0#32),
    unary main_c_70 main_v235 (broadcastInDim S3x500000 ![] bcast_S_S3x500000),
    binary main_v213 main_v235 main_v236 (cmpi .slt),
    nullary main_c_71 (constantI S_ 32 300#32),
    unary main_c_71 main_v237 (broadcastInDim S3x500000 ![] bcast_S_S3x500000),
    binary main_v213 main_v237 main_v238 addi,
    ternary main_v236 main_v238 main_v213 main_v239 select,
    unary main_v234 main_v240 (broadcastInDim S3x500000x1 ![0, 1] bcast_S3x500000_S3x500000x1_0_1),
    unary main_v239 main_v241 (broadcastInDim S3x500000x1 ![0, 1] bcast_S3x500000_S3x500000x1_0_1) ]

abbrev q35 : List (HloOp τ sig (Elt F)) :=
  [ binary main_v240 main_v241 main_v242 (fun a b => concatenate S3x500000x2 2 [⟨S3x500000x1, a⟩, ⟨S3x500000x1, b⟩] concatenates_S3x500000x1_S3x500000x1_S3x500000x2_d2),
    binary main_arg3 main_v242 main_v243 (fun x i => Host.gather gather_S3x48x300x300_S3x500000x2_S3x48x500000_1_23_0_0_23_2_14811 x i) ]

abbrev q36 : List (HloOp τ sig (Elt F)) :=
  [ nullary main_c_72 (constantI S_ 32 0#32),
    unary main_c_72 main_v244 (broadcastInDim S3x500000 ![] bcast_S_S3x500000),
    binary main_v215 main_v244 main_v245 (cmpi .slt),
    nullary main_c_73 (constantI S_ 32 300#32),
    unary main_c_73 main_v246 (broadcastInDim S3x500000 ![] bcast_S_S3x500000),
    binary main_v215 main_v246 main_v247 addi,
    ternary main_v245 main_v247 main_v215 main_v248 select,
    nullary main_c_74 (constantI S_ 32 0#32),
    unary main_c_74 main_v249 (broadcastInDim S3x500000 ![] bcast_S_S3x500000),
    binary main_v212 main_v249 main_v250 (cmpi .slt),
    nullary main_c_75 (constantI S_ 32 300#32),
    unary main_c_75 main_v251 (broadcastInDim S3x500000 ![] bcast_S_S3x500000),
    binary main_v212 main_v251 main_v252 addi,
    ternary main_v250 main_v252 main_v212 main_v253 select,
    unary main_v248 main_v254 (broadcastInDim S3x500000x1 ![0, 1] bcast_S3x500000_S3x500000x1_0_1),
    unary main_v253 main_v255 (broadcastInDim S3x500000x1 ![0, 1] bcast_S3x500000_S3x500000x1_0_1) ]

abbrev q37 : List (HloOp τ sig (Elt F)) :=
  [ binary main_v254 main_v255 main_v256 (fun a b => concatenate S3x500000x2 2 [⟨S3x500000x1, a⟩, ⟨S3x500000x1, b⟩] concatenates_S3x500000x1_S3x500000x1_S3x500000x2_d2),
    binary main_arg3 main_v256 main_v257 (fun x i => Host.gather gather_S3x48x300x300_S3x500000x2_S3x48x500000_1_23_0_0_23_2_14811 x i) ]

abbrev q38 : List (HloOp τ sig (Elt F)) :=
  [ nullary main_c_76 (constantI S_ 32 0#32),
    unary main_c_76 main_v258 (broadcastInDim S3x500000 ![] bcast_S_S3x500000),
    binary main_v215 main_v258 main_v259 (cmpi .slt),
    nullary main_c_77 (constantI S_ 32 300#32),
    unary main_c_77 main_v260 (broadcastInDim S3x500000 ![] bcast_S_S3x500000),
    binary main_v215 main_v260 main_v261 addi,
    ternary main_v259 main_v261 main_v215 main_v262 select,
    nullary main_c_78 (constantI S_ 32 0#32),
    unary main_c_78 main_v263 (broadcastInDim S3x500000 ![] bcast_S_S3x500000),
    binary main_v213 main_v263 main_v264 (cmpi .slt),
    nullary main_c_79 (constantI S_ 32 300#32),
    unary main_c_79 main_v265 (broadcastInDim S3x500000 ![] bcast_S_S3x500000),
    binary main_v213 main_v265 main_v266 addi,
    ternary main_v264 main_v266 main_v213 main_v267 select,
    unary main_v262 main_v268 (broadcastInDim S3x500000x1 ![0, 1] bcast_S3x500000_S3x500000x1_0_1),
    unary main_v267 main_v269 (broadcastInDim S3x500000x1 ![0, 1] bcast_S3x500000_S3x500000x1_0_1) ]

abbrev q39 : List (HloOp τ sig (Elt F)) :=
  [ binary main_v268 main_v269 main_v270 (fun a b => concatenate S3x500000x2 2 [⟨S3x500000x1, a⟩, ⟨S3x500000x1, b⟩] concatenates_S3x500000x1_S3x500000x1_S3x500000x2_d2),
    binary main_arg3 main_v270 main_v271 (fun x i => Host.gather gather_S3x48x300x300_S3x500000x2_S3x48x500000_1_23_0_0_23_2_14811 x i) ]

abbrev q40 : List (HloOp τ sig (Elt F)) :=
  [ nullary main_cst_80 (constant S_ .f32 0x3F800000#32),
    unary main_cst_80 main_v272 (broadcastInDim S3x500000 ![] bcast_S_S3x500000),
    binary main_v272 main_v210 main_v273 subf,
    unary main_v273 main_v274 (broadcastInDim S3x1x500000 ![0, 2] bcast_S3x500000_S3x1x500000_0_2),
    unary main_v274 main_v275 (broadcastInDim S3x48x500000 ![0, 1, 2] bcast_S3x1x500000_S3x48x500000_0_1_2),
    binary main_v229 main_v275 main_v276 mulf,
    nullary main_cst_81 (constant S_ .f32 0x3F800000#32),
    unary main_cst_81 main_v277 (broadcastInDim S3x500000 ![] bcast_S_S3x500000),
    binary main_v277 main_v211 main_v278 subf,
    unary main_v278 main_v279 (broadcastInDim S3x1x500000 ![0, 2] bcast_S3x500000_S3x1x500000_0_2),
    unary main_v279 main_v280 (broadcastInDim S3x48x500000 ![0, 1, 2] bcast_S3x1x500000_S3x48x500000_0_1_2),
    binary main_v276 main_v280 main_v281 mulf,
    unary main_v210 main_v282 (broadcastInDim S3x1x500000 ![0, 2] bcast_S3x500000_S3x1x500000_0_2),
    unary main_v282 main_v283 (broadcastInDim S3x48x500000 ![0, 1, 2] bcast_S3x1x500000_S3x48x500000_0_1_2),
    binary main_v243 main_v283 main_v284 mulf,
    nullary main_cst_82 (constant S_ .f32 0x3F800000#32),
    unary main_cst_82 main_v285 (broadcastInDim S3x500000 ![] bcast_S_S3x500000),
    binary main_v285 main_v211 main_v286 subf,
    unary main_v286 main_v287 (broadcastInDim S3x1x500000 ![0, 2] bcast_S3x500000_S3x1x500000_0_2),
    unary main_v287 main_v288 (broadcastInDim S3x48x500000 ![0, 1, 2] bcast_S3x1x500000_S3x48x500000_0_1_2),
    binary main_v284 main_v288 main_v289 mulf,
    binary main_v281 main_v289 main_v290 addf,
    nullary main_cst_83 (constant S_ .f32 0x3F800000#32),
    unary main_cst_83 main_v291 (broadcastInDim S3x500000 ![] bcast_S_S3x500000),
    binary main_v291 main_v210 main_v292 subf,
    unary main_v292 main_v293 (broadcastInDim S3x1x500000 ![0, 2] bcast_S3x500000_S3x1x500000_0_2) ]

abbrev q41 : List (HloOp τ sig (Elt F)) :=
  [ unary main_v293 main_v294 (broadcastInDim S3x48x500000 ![0, 1, 2] bcast_S3x1x500000_S3x48x500000_0_1_2),
    binary main_v257 main_v294 main_v295 mulf,
    unary main_v211 main_v296 (broadcastInDim S3x1x500000 ![0, 2] bcast_S3x500000_S3x1x500000_0_2),
    unary main_v296 main_v297 (broadcastInDim S3x48x500000 ![0, 1, 2] bcast_S3x1x500000_S3x48x500000_0_1_2),
    binary main_v295 main_v297 main_v298 mulf,
    binary main_v290 main_v298 main_v299 addf,
    unary main_v210 main_v300 (broadcastInDim S3x1x500000 ![0, 2] bcast_S3x500000_S3x1x500000_0_2),
    unary main_v300 main_v301 (broadcastInDim S3x48x500000 ![0, 1, 2] bcast_S3x1x500000_S3x48x500000_0_1_2),
    binary main_v271 main_v301 main_v302 mulf,
    unary main_v211 main_v303 (broadcastInDim S3x1x500000 ![0, 2] bcast_S3x500000_S3x1x500000_0_2),
    unary main_v303 main_v304 (broadcastInDim S3x48x500000 ![0, 1, 2] bcast_S3x1x500000_S3x48x500000_0_1_2),
    binary main_v302 main_v304 main_v305 mulf,
    binary main_v299 main_v305 main_v306 addf,
    nullary main_cst_84 (constant S_ .f32 0x3F800000#32),
    unary main_cst_84 main_v307 (broadcastInDim S3x500000 ![] bcast_S_S3x500000),
    binary main_v29 main_v307 main_v308 addf,
    nullary main_cst_85 (constant S_ .f32 0x3F000000#32),
    unary main_cst_85 main_v309 (broadcastInDim S3x500000 ![] bcast_S_S3x500000),
    binary main_v308 main_v309 main_v310 mulf,
    nullary main_cst_86 (constant S_ .f32 0x43958000#32),
    unary main_cst_86 main_v311 (broadcastInDim S3x500000 ![] bcast_S_S3x500000),
    binary main_v310 main_v311 main_v312 mulf,
    unary main_v312 main_v313 Host.floor,
    nullary main_c_87 (constantI S_ 32 0#32),
    nullary main_c_88 (constantI S_ 32 299#32) ]

abbrev q42 : List (HloOp τ sig (Elt F)) :=
  [ TRef.unary (TRef.of (T := ⟨S_, .i32⟩) main_c_87) (TRef.of (T := ⟨S_, .f32⟩) main_call10_v0) (sitofp .f32),
    TRef.unary (TRef.of (T := ⟨S_, .f32⟩) main_call10_v0) (TRef.of (T := ⟨S3x500000, .f32⟩) main_call10_v1) (broadcastInDim S3x500000 ![] bcast_S_S3x500000),
    TRef.binary (TRef.of (T := ⟨S3x500000, .f32⟩) main_call10_v1) (TRef.of (T := ⟨S3x500000, .f32⟩) main_v313) (TRef.of (T := ⟨S3x500000, .f32⟩) main_call10_v2) maximumf,
    TRef.unary (TRef.of (T := ⟨S_, .i32⟩) main_c_88) (TRef.of (T := ⟨S_, .f32⟩) main_call10_v3) (sitofp .f32),
    TRef.unary (TRef.of (T := ⟨S_, .f32⟩) main_call10_v3) (TRef.of (T := ⟨S3x500000, .f32⟩) main_call10_v4) (broadcastInDim S3x500000 ![] bcast_S_S3x500000),
    TRef.binary (TRef.of (T := ⟨S3x500000, .f32⟩) main_call10_v4) (TRef.of (T := ⟨S3x500000, .f32⟩) main_call10_v2) (TRef.of (T := ⟨S3x500000, .f32⟩) main_v314) minimumf ]

abbrev q43 : List (HloOp τ sig (Elt F)) :=
  [ nullary main_cst_89 (constant S_ .f32 0x3F800000#32),
    unary main_cst_89 main_v315 (broadcastInDim S3x500000 ![] bcast_S_S3x500000),
    binary main_v314 main_v315 main_v316 addf,
    nullary main_c_90 (constantI S_ 32 0#32),
    nullary main_c_91 (constantI S_ 32 299#32) ]

abbrev q44 : List (HloOp τ sig (Elt F)) :=
  [ TRef.unary (TRef.of (T := ⟨S_, .i32⟩) main_c_90) (TRef.of (T := ⟨S_, .f32⟩) main_call11_v0) (sitofp .f32),
    TRef.unary (TRef.of (T := ⟨S_, .f32⟩) main_call11_v0) (TRef.of (T := ⟨S3x500000, .f32⟩) main_call11_v1) (broadcastInDim S3x500000 ![] bcast_S_S3x500000),
    TRef.binary (TRef.of (T := ⟨S3x500000, .f32⟩) main_call11_v1) (TRef.of (T := ⟨S3x500000, .f32⟩) main_v316) (TRef.of (T := ⟨S3x500000, .f32⟩) main_call11_v2) maximumf,
    TRef.unary (TRef.of (T := ⟨S_, .i32⟩) main_c_91) (TRef.of (T := ⟨S_, .f32⟩) main_call11_v3) (sitofp .f32),
    TRef.unary (TRef.of (T := ⟨S_, .f32⟩) main_call11_v3) (TRef.of (T := ⟨S3x500000, .f32⟩) main_call11_v4) (broadcastInDim S3x500000 ![] bcast_S_S3x500000),
    TRef.binary (TRef.of (T := ⟨S3x500000, .f32⟩) main_call11_v4) (TRef.of (T := ⟨S3x500000, .f32⟩) main_call11_v2) (TRef.of (T := ⟨S3x500000, .f32⟩) main_v317) minimumf ]

abbrev q45 : List (HloOp τ sig (Elt F)) :=
  [ binary main_v312 main_v314 main_v318 subf,
    unary main_v314 main_v319 (fptosi 32),
    nullary main_c_92 (constantI S_ 32 0#32),
    unary main_c_92 main_v320 (broadcastInDim S3x500000 ![] bcast_S_S3x500000),
    binary main_v319 main_v320 main_v321 (cmpi .slt),
    nullary main_c_93 (constantI S_ 32 300#32),
    unary main_c_93 main_v322 (broadcastInDim S3x500000 ![] bcast_S_S3x500000),
    binary main_v319 main_v322 main_v323 addi,
    ternary main_v321 main_v323 main_v319 main_v324 select,
    unary main_v324 main_v325 (broadcastInDim S3x500000x1 ![0, 1] bcast_S3x500000_S3x500000x1_0_1),
    binary main_arg4 main_v325 main_v326 (fun x i => Host.gather gather_S3x48x300_S3x500000x1_S3x48x500000_1_2_0_0_2_2_1481 x i),
    unary main_v317 main_v327 (fptosi 32),
    nullary main_c_94 (constantI S_ 32 0#32),
    unary main_c_94 main_v328 (broadcastInDim S3x500000 ![] bcast_S_S3x500000),
    binary main_v327 main_v328 main_v329 (cmpi .slt),
    nullary main_c_95 (constantI S_ 32 300#32),
    unary main_c_95 main_v330 (broadcastInDim S3x500000 ![] bcast_S_S3x500000),
    binary main_v327 main_v330 main_v331 addi,
    ternary main_v329 main_v331 main_v327 main_v332 select,
    unary main_v332 main_v333 (broadcastInDim S3x500000x1 ![0, 1] bcast_S3x500000_S3x500000x1_0_1),
    binary main_arg4 main_v333 main_v334 (fun x i => Host.gather gather_S3x48x300_S3x500000x1_S3x48x500000_1_2_0_0_2_2_1481 x i),
    nullary main_cst_96 (constant S_ .f32 0x3F800000#32),
    unary main_cst_96 main_v335 (broadcastInDim S3x500000 ![] bcast_S_S3x500000),
    binary main_v335 main_v318 main_v336 subf,
    unary main_v336 main_v337 (broadcastInDim S3x1x500000 ![0, 2] bcast_S3x500000_S3x1x500000_0_2),
    unary main_v337 main_v338 (broadcastInDim S3x48x500000 ![0, 1, 2] bcast_S3x1x500000_S3x48x500000_0_1_2),
    binary main_v326 main_v338 main_v339 mulf,
    unary main_v318 main_v340 (broadcastInDim S3x1x500000 ![0, 2] bcast_S3x500000_S3x1x500000_0_2),
    unary main_v340 main_v341 (broadcastInDim S3x48x500000 ![0, 1, 2] bcast_S3x1x500000_S3x48x500000_0_1_2),
    binary main_v334 main_v341 main_v342 mulf,
    binary main_v339 main_v342 main_v343 addf,
    binary main_v306 main_v343 main_v344 mulf,
    reshape main_v344 main_v345 rfl shapeCasts_S3x48x500000_S144x500000 ]

abbrev qlast : List (HloOp τ sig (Elt F)) :=
  [ binary main_v345 main_arg5 main_v346 (fun l r => Host.dotGeneral dot_S144x500000_S27x144_S500000x27_0_1_1_0_n_n none l r) ]

end Cert.ReferenceIdeal.Lines

end
-- ==== Proof.RefRun.lean ====
import proofs.«401645_j73761768342118_3_alg».proof.Defs
import proofs.«401645_j73761768342118_3_alg».proof.Proof.RefPieces
import proofs.«401645_j73761768342118_3_alg».proof.Proof.LibLines

set_option maxRecDepth 65536

noncomputable section

namespace Cert.ReferenceIdeal.Lines

open Cert.ReferenceIdeal Cert.ReferenceIdeal.Gen Idealize.ShloMosaic Idealize.ShloMosaic.TcCoe Idealize.SL.Sem Idealize.ShloMosaic.StableHlo

variable {F : FTy → Type} [FloatOps F]

abbrev pieces : List (List (HloOp τ sig (Elt F))) :=
  [q0, q1, q2, q3, q4, q5, q6, q7, q8, q9, q10, q11, q12, q13, q14, q15, q16, q17, q18, q19, q20, q21, q22, q23, q24, q25, q26, q27, q28, q29, q30, q31, q32, q33, q34, q35, q36, q37, q38, q39, q40, q41, q42, q43, q44, q45, qlast]

abbrev ops : List (HloOp τ sig (Elt F)) := pieces.flatten

set_option maxHeartbeats 40000000 in
theorem main_eq (c : Dev nD) : main (F := F) c = seq ops := rfl

theorem pieces_sub : (pieces (F := F)).Forall fun l => l.Forall fun op => op.bufs ⊆ tcRefs τ sig := by
  repeat' apply And.intro
  all_goals dsimp only [List.Forall]
  all_goals with_reducible first
    | exact nullary_bufs_sub .. | exact unary_bufs_sub .. | exact binary_bufs_sub .. | exact ternary_bufs_sub ..
    | exact reshape_bufs_sub .. | exact nary_bufs_sub ..

theorem pieces_fresh : (pieces (F := F)).Forall fun l => l.Forall fun op => op.fresh = ∅ := by
  repeat' apply And.intro
  all_goals rfl

theorem pieces_keeps : (pieces (F := F)).Forall fun l => l.Forall fun op => ∀ r : Ref sig .tc, r.idx.val < 6 → Proc.devRef (τ := τ) .tc r ∉ op.writes := by
  repeat' apply And.intro
  all_goals exact keeps_of_writes rfl (by decide)

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference ends, each buffer at the fold of the lines' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq
    (fun _ => List.forall_iff_forall_mem.mpr (forall_flatten pieces_sub)) m ρ (fun _ => forall_flatten pieces_fresh)

/-- No line writes one of the first six buffers, the argument arrays. -/
theorem after_early (V : Valuation τ sig (Elt F)) (r : Ref sig .tc) (hr : r.idx.val < 6) :
    after ops V (Proc.devRef .tc r) = V (Proc.devRef .tc r) :=
  after_of_forall_not_mem _ _ fun op hop => forall_flatten pieces_keeps op hop r hr

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0).trans (after_early _ main_arg0 (by decide)), (h c main_arg1).trans (after_early _ main_arg1 (by decide)),
     (h c main_arg2).trans (after_early _ main_arg2 (by decide)), (h c main_arg3).trans (after_early _ main_arg3 (by decide)),
     (h c main_arg4).trans (after_early _ main_arg4 (by decide)), (h c main_arg5).trans (after_early _ main_arg5 (by decide))⟩)
    (run m ρ)

end Cert.ReferenceIdeal.Lines

end
-- ==== Proof.LibStack3.lean ====
import Idealize.ShloMosaic.Lib.StableHlo.Run

noncomputable section

namespace Idealize.ShloMosaic.StableHlo

def tri {T : Fin 3 → Type} (A : T 0) (B : T 1) (C : T 2) : (k : Fin 3) → T k :=
  Fin.cons A (Fin.cons B (Fin.cons C (fun i => i.elim0)))

@[simp] theorem tri_zero {T : Fin 3 → Type} (A : T 0) (B : T 1) (C : T 2) : tri A B C 0 = A := rfl
@[simp] theorem tri_one {T : Fin 3 → Type} (A : T 0) (B : T 1) (C : T 2) : tri A B C 1 = B := rfl
@[simp] theorem tri_two {T : Fin 3 → Type} (A : T 0) (B : T 1) (C : T 2) : tri A B C 2 = C := rfl

variable {nD : Nat} {τ : Topo} {sig : RefSig} {Val : EltTy → Type}
variable {x a b y : Ref sig .tc}

/-- A line over three operand references leaves its function of the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (tri (T := fun k => ((![x, a, b] : Fin 3 → Ref sig .tc) k).ty.Contents Val) (F (Proc.devRef .tc x)) (F (Proc.devRef .tc a)) (F (Proc.devRef .tc b))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (tri (T := fun k => ((![x, a, b] : Fin 3 → Ref sig .tc) k).ty.Contents Val) (F (Proc.devRef .tc x)) (F (Proc.devRef .tc a)) (F (Proc.devRef .tc b))) :=
  nary3_result f hxs hy F

end Idealize.ShloMosaic.StableHlo

end
-- ==== Proof.AgreeDefs.lean ====
import proofs.«401645_j73761768342118_3_alg».proof.Proof.KernelIdealAround
import proofs.«401645_j73761768342118_3_alg».proof.Proof.RefRun
import proofs.«401645_j73761768342118_3_alg».proof.Proof.LibStack3

set_option maxRecDepth 65536

noncomputable section

namespace Cert.Agree

open Idealize.ShloMosaic Idealize.ShloMosaic.TcCoe Idealize.SL.Sem Idealize.ShloMosaic.StableHlo

variable {F : FTy → Type} [FloatOps F]

def ArgsAgree (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

end Cert.Agree

end
-- ==== Proof.KernelPieces.lean ====
import proofs.«401645_j73761768342118_3_alg».proof.Proof.KernelIdealAround

noncomputable section

namespace Cert.KernelIdeal.Around

open Cert.KernelIdeal Cert.KernelIdeal.Gen Idealize.ShloMosaic Idealize.ShloMosaic.TcCoe Idealize.SL.Sem

variable {F : FTy → Type} [FloatOps F]

abbrev k0_0 : List (HloOp τ sig (Elt F)) := hostOps0.take 10
abbrev k0_1 : List (HloOp τ sig (Elt F)) := (hostOps0.drop 10).take 10
abbrev k0_2 : List (HloOp τ sig (Elt F)) := (hostOps0.drop 20).take 10
abbrev k0_3 : List (HloOp τ sig (Elt F)) := hostOps0.drop 30
theorem hostOps0_split : (hostOps0 : List (HloOp τ sig (Elt F))) = k0_0 ++ (k0_1 ++ (k0_2 ++ (k0_3))) := rfl

abbrev k8_0 : List (HloOp τ sig (Elt F)) := hostOps0_8.take 22
abbrev k8_1 : List (HloOp τ sig (Elt F)) := (hostOps0_8.drop 22).take 2
abbrev k8_2 : List (HloOp τ sig (Elt F)) := (hostOps0_8.drop 24).take 16
abbrev k8_3 : List (HloOp τ sig (Elt F)) := (hostOps0_8.drop 40).take 2
abbrev k8_4 : List (HloOp τ sig (Elt F)) := (hostOps0_8.drop 42).take 16
abbrev k8_5 : List (HloOp τ sig (Elt F)) := (hostOps0_8.drop 58).take 2
abbrev k8_6 : List (HloOp τ sig (Elt F)) := (hostOps0_8.drop 60).take 16
abbrev k8_7 : List (HloOp τ sig (Elt F)) := (hostOps0_8.drop 76).take 2
abbrev k8_8 : List (HloOp τ sig (Elt F)) := (hostOps0_8.drop 78).take 26
abbrev k8_9 : List (HloOp τ sig (Elt F)) := hostOps0_8.drop 104
theorem hostOps0_8_split : (hostOps0_8 : List (HloOp τ sig (Elt F))) = k8_0 ++ (k8_1 ++ (k8_2 ++ (k8_3 ++ (k8_4 ++ (k8_5 ++ (k8_6 ++ (k8_7 ++ (k8_8 ++ (k8_9))))))))) := rfl

abbrev k20_0 : List (HloOp τ sig (Elt F)) := hostOps0_20.take 22
abbrev k20_1 : List (HloOp τ sig (Elt F)) := (hostOps0_20.drop 22).take 2
abbrev k20_2 : List (HloOp τ sig (Elt F)) := (hostOps0_20.drop 24).take 16
abbrev k20_3 : List (HloOp τ sig (Elt F)) := (hostOps0_20.drop 40).take 2
abbrev k20_4 : List (HloOp τ sig (Elt F)) := (hostOps0_20.drop 42).take 16
abbrev k20_5 : List (HloOp τ sig (Elt F)) := (hostOps0_20.drop 58).take 2
abbrev k20_6 : List (HloOp τ sig (Elt F)) := (hostOps0_20.drop 60).take 16
abbrev k20_7 : List (HloOp τ sig (Elt F)) := (hostOps0_20.drop 76).take 2
abbrev k20_8 : List (HloOp τ sig (Elt F)) := (hostOps0_20.drop 78).take 26
abbrev k20_9 : List (HloOp τ sig (Elt F)) := hostOps0_20.drop 104
theorem hostOps0_20_split : (hostOps0_20 : List (HloOp τ sig (Elt F))) = k20_0 ++ (k20_1 ++ (k20_2 ++ (k20_3 ++ (k20_4 ++ (k20_5 ++ (k20_6 ++ (k20_7 ++ (k20_8 ++ (k20_9))))))))) := rfl

end Cert.KernelIdeal.Around

end
-- ==== Proof.LockDefs.lean ====
import proofs.«401645_j73761768342118_3_alg».proof.Proof.AgreeDefs
import proofs.«401645_j73761768342118_3_alg».proof.Proof.KernelPieces
import proofs.«401645_j73761768342118_3_alg».proof.Proof.RefPieces

set_option maxRecDepth 65536

noncomputable section

namespace Cert.Agree

open Idealize.ShloMosaic Idealize.ShloMosaic.TcCoe Idealize.SL.Sem Idealize.ShloMosaic.StableHlo

variable {F : FTy → Type} [FloatOps F]
variable (W : Valuation Cert.KernelIdeal.τ Cert.KernelIdeal.sig (Elt F)) (W' : Valuation Cert.ReferenceIdeal.τ Cert.ReferenceIdeal.sig (Elt F))

/-- The two programs' buffers agree on the six argument arrays. -/
def Args : Prop :=
  W' (Proc.devRef .tc Cert.ReferenceIdeal.main_arg0) = W (Proc.devRef .tc Cert.KernelIdeal.main_arg0)
  ∧ W' (Proc.devRef .tc Cert.ReferenceIdeal.main_arg1) = W (Proc.devRef .tc Cert.KernelIdeal.main_arg1)
  ∧ W' (Proc.devRef .tc Cert.ReferenceIdeal.main_arg2) = W (Proc.devRef .tc Cert.KernelIdeal.main_arg2)
  ∧ W' (Proc.devRef .tc Cert.ReferenceIdeal.main_arg3) = W (Proc.devRef .tc Cert.KernelIdeal.main_arg3)
  ∧ W' (Proc.devRef .tc Cert.ReferenceIdeal.main_arg4) = W (Proc.devRef .tc Cert.KernelIdeal.main_arg4)
  ∧ W' (Proc.devRef .tc Cert.ReferenceIdeal.main_arg5) = W (Proc.devRef .tc Cert.KernelIdeal.main_arg5)

def Agree1 : Prop :=
  Args W W'
  ∧ W' (Proc.devRef .tc Cert.ReferenceIdeal.main_v9) = W (Proc.devRef .tc Cert.KernelIdeal.main_v9)

def Agree2 : Prop :=
  Args W W'
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)

def Agree3 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)

def Agree4 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v35) = W (Proc.devRef .tc Cert.KernelIdeal.main_v35)
  ∧ W' (Proc.devRef .tc Cert.ReferenceIdeal.main_v41) = W (Proc.devRef .tc Cert.KernelIdeal.main_v41)
  ∧ W' (Proc.devRef .tc Cert.ReferenceIdeal.main_c) = W (Proc.devRef .tc Cert.KernelIdeal.main_c)
  ∧ W' (Proc.devRef .tc Cert.ReferenceIdeal.main_v42) = W (Proc.devRef .tc Cert.KernelIdeal.main_v42)
  ∧ W' (Proc.devRef .tc Cert.ReferenceIdeal.main_c_5) = W (Proc.devRef .tc Cert.KernelIdeal.main_c_5)

def Agree5 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v35) = W (Proc.devRef .tc Cert.KernelIdeal.main_v35)
  ∧ W' (Proc.devRef .tc Cert.ReferenceIdeal.main_v43) = W (Proc.devRef .tc Cert.KernelIdeal.main_v43)
  ∧ W' (Proc.devRef .tc Cert.ReferenceIdeal.main_v41) = W (Proc.devRef .tc Cert.KernelIdeal.main_v41)

def Agree6 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v35) = W (Proc.devRef .tc Cert.KernelIdeal.main_v35)
  ∧ W' (Proc.devRef .tc Cert.ReferenceIdeal.main_v43) = W (Proc.devRef .tc Cert.KernelIdeal.main_v43)
  ∧ W' (Proc.devRef .tc Cert.ReferenceIdeal.main_v41) = W (Proc.devRef .tc Cert.KernelIdeal.main_v41)
  ∧ W' (Proc.devRef .tc Cert.ReferenceIdeal.main_c_6) = W (Proc.devRef .tc Cert.KernelIdeal.main_c_6)
  ∧ W' (Proc.devRef .tc Cert.ReferenceIdeal.main_v44) = W (Proc.devRef .tc Cert.KernelIdeal.main_v44)
  ∧ W' (Proc.devRef .tc Cert.ReferenceIdeal.main_c_7) = W (Proc.devRef .tc Cert.KernelIdeal.main_c_7)

def Agree7 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v35) = W (Proc.devRef .tc Cert.KernelIdeal.main_v35)
  ∧ W' (Proc.devRef .tc Cert.ReferenceIdeal.main_v43) = W (Proc.devRef .tc Cert.KernelIdeal.main_v43)
  ∧ W' (Proc.devRef .tc Cert.ReferenceIdeal.main_v41) = W (Proc.devRef .tc Cert.KernelIdeal.main_v41)
  ∧ W' (Proc.devRef .tc Cert.ReferenceIdeal.main_v45) = W (Proc.devRef .tc Cert.KernelIdeal.main_v45)

def Agree8 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v35) = W (Proc.devRef .tc Cert.KernelIdeal.main_v35)
  ∧ W' (Proc.devRef .tc Cert.ReferenceIdeal.main_v43) = W (Proc.devRef .tc Cert.KernelIdeal.main_v43)
  ∧ W' (Proc.devRef .tc Cert.ReferenceIdeal.main_v41) = W (Proc.devRef .tc Cert.KernelIdeal.main_v41)
  ∧ W' (Proc.devRef .tc Cert.ReferenceIdeal.main_v45) = W (Proc.devRef .tc Cert.KernelIdeal.main_v45)
  ∧ W' (Proc.devRef .tc Cert.ReferenceIdeal.main_c_9) = W (Proc.devRef .tc Cert.KernelIdeal.main_c_9)
  ∧ W' (Proc.devRef .tc Cert.ReferenceIdeal.main_v47) = W (Proc.devRef .tc Cert.KernelIdeal.main_v47)
  ∧ W' (Proc.devRef .tc Cert.ReferenceIdeal.main_c_10) = W (Proc.devRef .tc Cert.KernelIdeal.main_c_10)

def Agree9 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v35) = W (Proc.devRef .tc Cert.KernelIdeal.main_v35)
  ∧ W' (Proc.devRef .tc Cert.ReferenceIdeal.main_v43) = W (Proc.devRef .tc Cert.KernelIdeal.main_v43)
  ∧ W' (Proc.devRef .tc Cert.ReferenceIdeal.main_v41) = W (Proc.devRef .tc Cert.KernelIdeal.main_v41)
  ∧ W' (Proc.devRef .tc Cert.ReferenceIdeal.main_v45) = W (Proc.devRef .tc Cert.KernelIdeal.main_v45)
  ∧ W' (Proc.devRef .tc Cert.ReferenceIdeal.main_v48) = W (Proc.devRef .tc Cert.KernelIdeal.main_v48)

def Agree10 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v35) = W (Proc.devRef .tc Cert.KernelIdeal.main_v35)
  ∧ W' (Proc.devRef .tc Cert.ReferenceIdeal.main_v43) = W (Proc.devRef .tc Cert.KernelIdeal.main_v43)
  ∧ W' (Proc.devRef .tc Cert.ReferenceIdeal.main_v41) = W (Proc.devRef .tc Cert.KernelIdeal.main_v41)
  ∧ W' (Proc.devRef .tc Cert.ReferenceIdeal.main_v45) = W (Proc.devRef .tc Cert.KernelIdeal.main_v45)
  ∧ W' (Proc.devRef .tc Cert.ReferenceIdeal.main_v48) = W (Proc.devRef .tc Cert.KernelIdeal.main_v48)
  ∧ W' (Proc.devRef .tc Cert.ReferenceIdeal.main_c_12) = W (Proc.devRef .tc Cert.KernelIdeal.main_c_12)
  ∧ W' (Proc.devRef .tc Cert.ReferenceIdeal.main_v50) = W (Proc.devRef .tc Cert.KernelIdeal.main_v50)
  ∧ W' (Proc.devRef .tc Cert.ReferenceIdeal.main_c_13) = W (Proc.devRef .tc Cert.KernelIdeal.main_c_13)

def Agree11 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v35) = W (Proc.devRef .tc Cert.KernelIdeal.main_v35)
  ∧ W' (Proc.devRef .tc Cert.ReferenceIdeal.main_v43) = W (Proc.devRef .tc Cert.KernelIdeal.main_v43)
  ∧ W' (Proc.devRef .tc Cert.ReferenceIdeal.main_v41) = W (Proc.devRef .tc Cert.KernelIdeal.main_v41)
  ∧ W' (Proc.devRef .tc Cert.ReferenceIdeal.main_v45) = W (Proc.devRef .tc Cert.KernelIdeal.main_v45)
  ∧ W' (Proc.devRef .tc Cert.ReferenceIdeal.main_v48) = W (Proc.devRef .tc Cert.KernelIdeal.main_v48)
  ∧ W' (Proc.devRef .tc Cert.ReferenceIdeal.main_v51) = W (Proc.devRef .tc Cert.KernelIdeal.main_v51)

def Agree12 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v53) = W (Proc.devRef .tc Cert.KernelIdeal.main_v53)
  ∧ W' (Proc.devRef .tc Cert.ReferenceIdeal.main_v52) = W (Proc.devRef .tc Cert.KernelIdeal.main_v52)
  ∧ W' (Proc.devRef .tc Cert.ReferenceIdeal.main_v57) = W (Proc.devRef .tc Cert.KernelIdeal.main_v57)
  ∧ W' (Proc.devRef .tc Cert.ReferenceIdeal.main_v55) = W (Proc.devRef .tc Cert.KernelIdeal.main_v55)
  ∧ W' (Proc.devRef .tc Cert.ReferenceIdeal.main_v54) = W (Proc.devRef .tc Cert.KernelIdeal.main_v54)
  ∧ W' (Proc.devRef .tc Cert.ReferenceIdeal.main_v56) = W (Proc.devRef .tc Cert.KernelIdeal.main_v56)
  ∧ W' (Proc.devRef .tc Cert.ReferenceIdeal.main_v68) = W (Proc.devRef .tc Cert.KernelIdeal.main_v68)
  ∧ W' (Proc.devRef .tc Cert.ReferenceIdeal.main_v69) = W (Proc.devRef .tc Cert.KernelIdeal.main_v69)

def Agree13 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v53) = W (Proc.devRef .tc Cert.KernelIdeal.main_v53)
  ∧ W' (Proc.devRef .tc Cert.ReferenceIdeal.main_v52) = W (Proc.devRef .tc Cert.KernelIdeal.main_v52)
  ∧ W' (Proc.devRef .tc Cert.ReferenceIdeal.main_v71) = W (Proc.devRef .tc Cert.KernelIdeal.main_v71)
  ∧ W' (Proc.devRef .tc Cert.ReferenceIdeal.main_v57) = W (Proc.devRef .tc Cert.KernelIdeal.main_v57)
  ∧ W' (Proc.devRef .tc Cert.ReferenceIdeal.main_v55) = W (Proc.devRef .tc Cert.KernelIdeal.main_v55)
  ∧ W' (Proc.devRef .tc Cert.ReferenceIdeal.main_v54) = W (Proc.devRef .tc Cert.KernelIdeal.main_v54)
  ∧ W' (Proc.devRef .tc Cert.ReferenceIdeal.main_v56) = W (Proc.devRef .tc Cert.KernelIdeal.main_v56)

def Agree14 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v53) = W (Proc.devRef .tc Cert.KernelIdeal.main_v53)
  ∧ W' (Proc.devRef .tc Cert.ReferenceIdeal.main_v52) = W (Proc.devRef .tc Cert.KernelIdeal.main_v52)
  ∧ W' (Proc.devRef .tc Cert.ReferenceIdeal.main_v71) = W (Proc.devRef .tc Cert.KernelIdeal.main_v71)
  ∧ W' (Proc.devRef .tc Cert.ReferenceIdeal.main_v57) = W (Proc.devRef .tc Cert.KernelIdeal.main_v57)
  ∧ W' (Proc.devRef .tc Cert.ReferenceIdeal.main_v55) = W (Proc.devRef .tc Cert.KernelIdeal.main_v55)
  ∧ W' (Proc.devRef .tc Cert.ReferenceIdeal.main_v54) = W (Proc.devRef .tc Cert.KernelIdeal.main_v54)
  ∧ W' (Proc.devRef .tc Cert.ReferenceIdeal.main_v82) = W (Proc.devRef .tc Cert.KernelIdeal.main_v82)
  ∧ W' (Proc.devRef .tc Cert.ReferenceIdeal.main_v83) = W (Proc.devRef .tc Cert.KernelIdeal.main_v83)

def Agree15 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v53) = W (Proc.devRef .tc Cert.KernelIdeal.main_v53)
  ∧ W' (Proc.devRef .tc Cert.ReferenceIdeal.main_v52) = W (Proc.devRef .tc Cert.KernelIdeal.main_v52)
  ∧ W' (Proc.devRef .tc Cert.ReferenceIdeal.main_v71) = W (Proc.devRef .tc Cert.KernelIdeal.main_v71)
  ∧ W' (Proc.devRef .tc Cert.ReferenceIdeal.main_v85) = W (Proc.devRef .tc Cert.KernelIdeal.main_v85)
  ∧ W' (Proc.devRef .tc Cert.ReferenceIdeal.main_v57) = W (Proc.devRef .tc Cert.KernelIdeal.main_v57)
  ∧ W' (Proc.devRef .tc Cert.ReferenceIdeal.main_v55) = W (Proc.devRef .tc Cert.KernelIdeal.main_v55)
  ∧ W' (Proc.devRef .tc Cert.ReferenceIdeal.main_v54) = W (Proc.devRef .tc Cert.KernelIdeal.main_v54)

def Agree16 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v53) = W (Proc.devRef .tc Cert.KernelIdeal.main_v53)
  ∧ W' (Proc.devRef .tc Cert.ReferenceIdeal.main_v52) = W (Proc.devRef .tc Cert.KernelIdeal.main_v52)
  ∧ W' (Proc.devRef .tc Cert.ReferenceIdeal.main_v71) = W (Proc.devRef .tc Cert.KernelIdeal.main_v71)
  ∧ W' (Proc.devRef .tc Cert.ReferenceIdeal.main_v85) = W (Proc.devRef .tc Cert.KernelIdeal.main_v85)
  ∧ W' (Proc.devRef .tc Cert.ReferenceIdeal.main_v57) = W (Proc.devRef .tc Cert.KernelIdeal.main_v57)
  ∧ W' (Proc.devRef .tc Cert.ReferenceIdeal.main_v55) = W (Proc.devRef .tc Cert.KernelIdeal.main_v55)
  ∧ W' (Proc.devRef .tc Cert.ReferenceIdeal.main_v96) = W (Proc.devRef .tc Cert.KernelIdeal.main_v96)
  ∧ W' (Proc.devRef .tc Cert.ReferenceIdeal.main_v97) = W (Proc.devRef .tc Cert.KernelIdeal.main_v97)

def Agree17 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v99) = W (Proc.devRef .tc Cert.KernelIdeal.main_v99)
  ∧ W' (Proc.devRef .tc Cert.ReferenceIdeal.main_v53) = W (Proc.devRef .tc Cert.KernelIdeal.main_v53)
  ∧ W' (Proc.devRef .tc Cert.ReferenceIdeal.main_v52) = W (Proc.devRef .tc Cert.KernelIdeal.main_v52)
  ∧ W' (Proc.devRef .tc Cert.ReferenceIdeal.main_v71) = W (Proc.devRef .tc Cert.KernelIdeal.main_v71)
  ∧ W' (Proc.devRef .tc Cert.ReferenceIdeal.main_v85) = W (Proc.devRef .tc Cert.KernelIdeal.main_v85)
  ∧ W' (Proc.devRef .tc Cert.ReferenceIdeal.main_v57) = W (Proc.devRef .tc Cert.KernelIdeal.main_v57)
  ∧ W' (Proc.devRef .tc Cert.ReferenceIdeal.main_v55) = W (Proc.devRef .tc Cert.KernelIdeal.main_v55)

def Agree18 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v99) = W (Proc.devRef .tc Cert.KernelIdeal.main_v99)
  ∧ W' (Proc.devRef .tc Cert.ReferenceIdeal.main_v53) = W (Proc.devRef .tc Cert.KernelIdeal.main_v53)
  ∧ W' (Proc.devRef .tc Cert.ReferenceIdeal.main_v52) = W (Proc.devRef .tc Cert.KernelIdeal.main_v52)
  ∧ W' (Proc.devRef .tc Cert.ReferenceIdeal.main_v71) = W (Proc.devRef .tc Cert.KernelIdeal.main_v71)
  ∧ W' (Proc.devRef .tc Cert.ReferenceIdeal.main_v85) = W (Proc.devRef .tc Cert.KernelIdeal.main_v85)
  ∧ W' (Proc.devRef .tc Cert.ReferenceIdeal.main_v110) = W (Proc.devRef .tc Cert.KernelIdeal.main_v110)
  ∧ W' (Proc.devRef .tc Cert.ReferenceIdeal.main_v111) = W (Proc.devRef .tc Cert.KernelIdeal.main_v111)

def Agree19 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v99) = W (Proc.devRef .tc Cert.KernelIdeal.main_v99)
  ∧ W' (Proc.devRef .tc Cert.ReferenceIdeal.main_v53) = W (Proc.devRef .tc Cert.KernelIdeal.main_v53)
  ∧ W' (Proc.devRef .tc Cert.ReferenceIdeal.main_v52) = W (Proc.devRef .tc Cert.KernelIdeal.main_v52)
  ∧ W' (Proc.devRef .tc Cert.ReferenceIdeal.main_v113) = W (Proc.devRef .tc Cert.KernelIdeal.main_v113)
  ∧ W' (Proc.devRef .tc Cert.ReferenceIdeal.main_v71) = W (Proc.devRef .tc Cert.KernelIdeal.main_v71)
  ∧ W' (Proc.devRef .tc Cert.ReferenceIdeal.main_v85) = W (Proc.devRef .tc Cert.KernelIdeal.main_v85)

def Agree20 : Prop :=
  Args W W'
  ∧ W' (Proc.devRef .tc Cert.ReferenceIdeal.main_v29) = W (Proc.devRef .tc Cert.KernelIdeal.main_v29)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_v135) = W (Proc.devRef .tc Cert.KernelIdeal.main_v135)
  ∧ W' (Proc.devRef .tc Cert.ReferenceIdeal.main_v99) = W (Proc.devRef .tc Cert.KernelIdeal.main_v99)
  ∧ W' (Proc.devRef .tc Cert.ReferenceIdeal.main_v53) = W (Proc.devRef .tc Cert.KernelIdeal.main_v53)
  ∧ W' (Proc.devRef .tc Cert.ReferenceIdeal.main_v132) = W (Proc.devRef .tc Cert.KernelIdeal.main_v132)
  ∧ W' (Proc.devRef .tc Cert.ReferenceIdeal.main_v52) = W (Proc.devRef .tc Cert.KernelIdeal.main_v52)
  ∧ W' (Proc.devRef .tc Cert.ReferenceIdeal.main_v113) = W (Proc.devRef .tc Cert.KernelIdeal.main_v113)

def Agree21 : Prop :=
  Args W W'
  ∧ W' (Proc.devRef .tc Cert.ReferenceIdeal.main_v29) = W (Proc.devRef .tc Cert.KernelIdeal.main_v29)
  ∧ W' (Proc.devRef .tc Cert.ReferenceIdeal.main_v154) = W (Proc.devRef .tc Cert.KernelIdeal.main_v154)
  ∧ W' (Proc.devRef .tc Cert.ReferenceIdeal.main_v148) = W (Proc.devRef .tc Cert.KernelIdeal.main_v148)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_c_37) = W (Proc.devRef .tc Cert.KernelIdeal.main_c_37)
  ∧ W' (Proc.devRef .tc Cert.ReferenceIdeal.main_v155) = W (Proc.devRef .tc Cert.KernelIdeal.main_v155)
  ∧ W' (Proc.devRef .tc Cert.ReferenceIdeal.main_c_38) = W (Proc.devRef .tc Cert.KernelIdeal.main_c_38)

def Agree22 : Prop :=
  Args W W'
  ∧ W' (Proc.devRef .tc Cert.ReferenceIdeal.main_v29) = W (Proc.devRef .tc Cert.KernelIdeal.main_v29)
  ∧ W' (Proc.devRef .tc Cert.ReferenceIdeal.main_v154) = W (Proc.devRef .tc Cert.KernelIdeal.main_v154)
  ∧ W' (Proc.devRef .tc Cert.ReferenceIdeal.main_v156) = W (Proc.devRef .tc Cert.KernelIdeal.main_v156)
  ∧ W' (Proc.devRef .tc Cert.ReferenceIdeal.main_v148) = W (Proc.devRef .tc Cert.KernelIdeal.main_v148)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)

def Agree23 : Prop :=
  Args W W'
  ∧ W' (Proc.devRef .tc Cert.ReferenceIdeal.main_v29) = W (Proc.devRef .tc Cert.KernelIdeal.main_v29)
  ∧ W' (Proc.devRef .tc Cert.ReferenceIdeal.main_v154) = W (Proc.devRef .tc Cert.KernelIdeal.main_v154)
  ∧ W' (Proc.devRef .tc Cert.ReferenceIdeal.main_v156) = W (Proc.devRef .tc Cert.KernelIdeal.main_v156)
  ∧ W' (Proc.devRef .tc Cert.ReferenceIdeal.main_v148) = W (Proc.devRef .tc Cert.KernelIdeal.main_v148)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)
  ∧ W' (Proc.devRef .tc Cert.ReferenceIdeal.main_c_40) = W (Proc.devRef .tc Cert.KernelIdeal.main_c_40)
  ∧ W' (Proc.devRef .tc Cert.ReferenceIdeal.main_v158) = W (Proc.devRef .tc Cert.KernelIdeal.main_v158)
  ∧ W' (Proc.devRef .tc Cert.ReferenceIdeal.main_c_41) = W (Proc.devRef .tc Cert.KernelIdeal.main_c_41)

def Agree24 : Prop :=
  Args W W'
  ∧ W' (Proc.devRef .tc Cert.ReferenceIdeal.main_v29) = W (Proc.devRef .tc Cert.KernelIdeal.main_v29)
  ∧ W' (Proc.devRef .tc Cert.ReferenceIdeal.main_v154) = W (Proc.devRef .tc Cert.KernelIdeal.main_v154)
  ∧ W' (Proc.devRef .tc Cert.ReferenceIdeal.main_v156) = W (Proc.devRef .tc Cert.KernelIdeal.main_v156)
  ∧ W' (Proc.devRef .tc Cert.ReferenceIdeal.main_v159) = W (Proc.devRef .tc Cert.KernelIdeal.main_v159)
  ∧ W' (Proc.devRef .tc Cert.ReferenceIdeal.main_v148) = W (Proc.devRef .tc Cert.KernelIdeal.main_v148)
  ∧ W' (Proc.devRef .tc Cert.ReferenceIdeal.main_v9) = W (Proc.devRef .tc Cert.KernelIdeal.main_v9)
  ∧ W' (Proc.devRef .tc Cert.ReferenceIdeal.main_v19) = W (Proc.devRef .tc Cert.KernelIdeal.main_v19)

def Agree25 : Prop :=
  Args W W'
  ∧ W' (Proc.devRef .tc Cert.ReferenceIdeal.main_v187) = W (Proc.devRef .tc Cert.KernelIdeal.main_v187)
  ∧ W' (Proc.devRef .tc Cert.ReferenceIdeal.main_v29) = W (Proc.devRef .tc Cert.KernelIdeal.main_v29)
  ∧ W' (Proc.devRef .tc Cert.ReferenceIdeal.main_v193) = W (Proc.devRef .tc Cert.KernelIdeal.main_v193)
  ∧ W' (Proc.devRef .tc Cert.ReferenceIdeal.main_v199) = W (Proc.devRef .tc Cert.KernelIdeal.main_v199)
  ∧ W' (Proc.devRef .tc Cert.ReferenceIdeal.main_c_54) = W (Proc.devRef .tc Cert.KernelIdeal.main_c_54)
  ∧ W' (Proc.devRef .tc Cert.ReferenceIdeal.main_v200) = W (Proc.devRef .tc Cert.KernelIdeal.main_v200)
  ∧ W' (Proc.devRef .tc Cert.ReferenceIdeal.main_c_55) = W (Proc.devRef .tc Cert.KernelIdeal.main_c_55)

def Agree26 : Prop :=
  Args W W'
  ∧ W' (Proc.devRef .tc Cert.ReferenceIdeal.main_v187) = W (Proc.devRef .tc Cert.KernelIdeal.main_v187)
  ∧ W' (Proc.devRef .tc Cert.ReferenceIdeal.main_v29) = W (Proc.devRef .tc Cert.KernelIdeal.main_v29)
  ∧ W' (Proc.devRef .tc Cert.ReferenceIdeal.main_v193) = W (Proc.devRef .tc Cert.KernelIdeal.main_v193)
  ∧ W' (Proc.devRef .tc Cert.ReferenceIdeal.main_v201) = W (Proc.devRef .tc Cert.KernelIdeal.main_v201)
  ∧ W' (Proc.devRef .tc Cert.ReferenceIdeal.main_v199) = W (Proc.devRef .tc Cert.KernelIdeal.main_v199)

def Agree27 : Prop :=
  Args W W'
  ∧ W' (Proc.devRef .tc Cert.ReferenceIdeal.main_v187) = W (Proc.devRef .tc Cert.KernelIdeal.main_v187)
  ∧ W' (Proc.devRef .tc Cert.ReferenceIdeal.main_v29) = W (Proc.devRef .tc Cert.KernelIdeal.main_v29)
  ∧ W' (Proc.devRef .tc Cert.ReferenceIdeal.main_v193) = W (Proc.devRef .tc Cert.KernelIdeal.main_v193)
  ∧ W' (Proc.devRef .tc Cert.ReferenceIdeal.main_v201) = W (Proc.devRef .tc Cert.KernelIdeal.main_v201)
  ∧ W' (Proc.devRef .tc Cert.ReferenceIdeal.main_v199) = W (Proc.devRef .tc Cert.KernelIdeal.main_v199)
  ∧ W' (Proc.devRef .tc Cert.ReferenceIdeal.main_c_56) = W (Proc.devRef .tc Cert.KernelIdeal.main_c_56)
  ∧ W' (Proc.devRef .tc Cert.ReferenceIdeal.main_v202) = W (Proc.devRef .tc Cert.KernelIdeal.main_v202)
  ∧ W' (Proc.devRef .tc Cert.ReferenceIdeal.main_c_57) = W (Proc.devRef .tc Cert.KernelIdeal.main_c_57)

def Agree28 : Prop :=
  Args W W'
  ∧ W' (Proc.devRef .tc Cert.ReferenceIdeal.main_v187) = W (Proc.devRef .tc Cert.KernelIdeal.main_v187)
  ∧ W' (Proc.devRef .tc Cert.ReferenceIdeal.main_v29) = W (Proc.devRef .tc Cert.KernelIdeal.main_v29)
  ∧ W' (Proc.devRef .tc Cert.ReferenceIdeal.main_v193) = W (Proc.devRef .tc Cert.KernelIdeal.main_v193)
  ∧ W' (Proc.devRef .tc Cert.ReferenceIdeal.main_v201) = W (Proc.devRef .tc Cert.KernelIdeal.main_v201)
  ∧ W' (Proc.devRef .tc Cert.ReferenceIdeal.main_v199) = W (Proc.devRef .tc Cert.KernelIdeal.main_v199)
  ∧ W' (Proc.devRef .tc Cert.ReferenceIdeal.main_v203) = W (Proc.devRef .tc Cert.KernelIdeal.main_v203)

def Agree29 : Prop :=
  Args W W'
  ∧ W' (Proc.devRef .tc Cert.ReferenceIdeal.main_v187) = W (Proc.devRef .tc Cert.KernelIdeal.main_v187)
  ∧ W' (Proc.devRef .tc Cert.ReferenceIdeal.main_v29) = W (Proc.devRef .tc Cert.KernelIdeal.main_v29)
  ∧ W' (Proc.devRef .tc Cert.ReferenceIdeal.main_v193) = W (Proc.devRef .tc Cert.KernelIdeal.main_v193)
  ∧ W' (Proc.devRef .tc Cert.ReferenceIdeal.main_v201) = W (Proc.devRef .tc Cert.KernelIdeal.main_v201)
  ∧ W' (Proc.devRef .tc Cert.ReferenceIdeal.main_v199) = W (Proc.devRef .tc Cert.KernelIdeal.main_v199)
  ∧ W' (Proc.devRef .tc Cert.ReferenceIdeal.main_v203) = W (Proc.devRef .tc Cert.KernelIdeal.main_v203)
  ∧ W' (Proc.devRef .tc Cert.ReferenceIdeal.main_c_59) = W (Proc.devRef .tc Cert.KernelIdeal.main_c_59)
  ∧ W' (Proc.devRef .tc Cert.ReferenceIdeal.main_v205) = W (Proc.devRef .tc Cert.KernelIdeal.main_v205)
  ∧ W' (Proc.devRef .tc Cert.ReferenceIdeal.main_c_60) = W (Proc.devRef .tc Cert.KernelIdeal.main_c_60)

def Agree30 : Prop :=
  Args W W'
  ∧ W' (Proc.devRef .tc Cert.ReferenceIdeal.main_v187) = W (Proc.devRef .tc Cert.KernelIdeal.main_v187)
  ∧ W' (Proc.devRef .tc Cert.ReferenceIdeal.main_v29) = W (Proc.devRef .tc Cert.KernelIdeal.main_v29)
  ∧ W' (Proc.devRef .tc Cert.ReferenceIdeal.main_v193) = W (Proc.devRef .tc Cert.KernelIdeal.main_v193)
  ∧ W' (Proc.devRef .tc Cert.ReferenceIdeal.main_v201) = W (Proc.devRef .tc Cert.KernelIdeal.main_v201)
  ∧ W' (Proc.devRef .tc Cert.ReferenceIdeal.main_v199) = W (Proc.devRef .tc Cert.KernelIdeal.main_v199)
  ∧ W' (Proc.devRef .tc Cert.ReferenceIdeal.main_v203) = W (Proc.devRef .tc Cert.KernelIdeal.main_v203)
  ∧ W' (Proc.devRef .tc Cert.ReferenceIdeal.main_v206) = W (Proc.devRef .tc Cert.KernelIdeal.main_v206)

def Agree31 : Prop :=
  Args W W'
  ∧ W' (Proc.devRef .tc Cert.ReferenceIdeal.main_v187) = W (Proc.devRef .tc Cert.KernelIdeal.main_v187)
  ∧ W' (Proc.devRef .tc Cert.ReferenceIdeal.main_v29) = W (Proc.devRef .tc Cert.KernelIdeal.main_v29)
  ∧ W' (Proc.devRef .tc Cert.ReferenceIdeal.main_v193) = W (Proc.devRef .tc Cert.KernelIdeal.main_v193)
  ∧ W' (Proc.devRef .tc Cert.ReferenceIdeal.main_v201) = W (Proc.devRef .tc Cert.KernelIdeal.main_v201)
  ∧ W' (Proc.devRef .tc Cert.ReferenceIdeal.main_v199) = W (Proc.devRef .tc Cert.KernelIdeal.main_v199)
  ∧ W' (Proc.devRef .tc Cert.ReferenceIdeal.main_v203) = W (Proc.devRef .tc Cert.KernelIdeal.main_v203)
  ∧ W' (Proc.devRef .tc Cert.ReferenceIdeal.main_v206) = W (Proc.devRef .tc Cert.KernelIdeal.main_v206)
  ∧ W' (Proc.devRef .tc Cert.ReferenceIdeal.main_c_62) = W (Proc.devRef .tc Cert.KernelIdeal.main_c_62)
  ∧ W' (Proc.devRef .tc Cert.ReferenceIdeal.main_v208) = W (Proc.devRef .tc Cert.KernelIdeal.main_v208)
  ∧ W' (Proc.devRef .tc Cert.ReferenceIdeal.main_c_63) = W (Proc.devRef .tc Cert.KernelIdeal.main_c_63)

def Agree32 : Prop :=
  Args W W'
  ∧ W' (Proc.devRef .tc Cert.ReferenceIdeal.main_v187) = W (Proc.devRef .tc Cert.KernelIdeal.main_v187)
  ∧ W' (Proc.devRef .tc Cert.ReferenceIdeal.main_v29) = W (Proc.devRef .tc Cert.KernelIdeal.main_v29)
  ∧ W' (Proc.devRef .tc Cert.ReferenceIdeal.main_v193) = W (Proc.devRef .tc Cert.KernelIdeal.main_v193)
  ∧ W' (Proc.devRef .tc Cert.ReferenceIdeal.main_v201) = W (Proc.devRef .tc Cert.KernelIdeal.main_v201)
  ∧ W' (Proc.devRef .tc Cert.ReferenceIdeal.main_v199) = W (Proc.devRef .tc Cert.KernelIdeal.main_v199)
  ∧ W' (Proc.devRef .tc Cert.ReferenceIdeal.main_v203) = W (Proc.devRef .tc Cert.KernelIdeal.main_v203)
  ∧ W' (Proc.devRef .tc Cert.ReferenceIdeal.main_v206) = W (Proc.devRef .tc Cert.KernelIdeal.main_v206)
  ∧ W' (Proc.devRef .tc Cert.ReferenceIdeal.main_v209) = W (Proc.devRef .tc Cert.KernelIdeal.main_v209)

def Agree33 : Prop :=
  Args W W'
  ∧ W' (Proc.devRef .tc Cert.ReferenceIdeal.main_v187) = W (Proc.devRef .tc Cert.KernelIdeal.main_v187)
  ∧ W' (Proc.devRef .tc Cert.ReferenceIdeal.main_v211) = W (Proc.devRef .tc Cert.KernelIdeal.main_v211)
  ∧ W' (Proc.devRef .tc Cert.ReferenceIdeal.main_v210) = W (Proc.devRef .tc Cert.KernelIdeal.main_v210)
  ∧ W' (Proc.devRef .tc Cert.ReferenceIdeal.main_v29) = W (Proc.devRef .tc Cert.KernelIdeal.main_v29)
  ∧ W' (Proc.devRef .tc Cert.ReferenceIdeal.main_v215) = W (Proc.devRef .tc Cert.KernelIdeal.main_v215)
  ∧ W' (Proc.devRef .tc Cert.ReferenceIdeal.main_v213) = W (Proc.devRef .tc Cert.KernelIdeal.main_v213)
  ∧ W' (Proc.devRef .tc Cert.ReferenceIdeal.main_v212) = W (Proc.devRef .tc Cert.KernelIdeal.main_v212)
  ∧ W' (Proc.devRef .tc Cert.ReferenceIdeal.main_v214) = W (Proc.devRef .tc Cert.KernelIdeal.main_v214)
  ∧ W' (Proc.devRef .tc Cert.ReferenceIdeal.main_v226) = W (Proc.devRef .tc Cert.KernelIdeal.main_v226)
  ∧ W' (Proc.devRef .tc Cert.ReferenceIdeal.main_v227) = W (Proc.devRef .tc Cert.KernelIdeal.main_v227)

def Agree34 : Prop :=
  Args W W'
  ∧ W' (Proc.devRef .tc Cert.ReferenceIdeal.main_v187) = W (Proc.devRef .tc Cert.KernelIdeal.main_v187)
  ∧ W' (Proc.devRef .tc Cert.ReferenceIdeal.main_v211) = W (Proc.devRef .tc Cert.KernelIdeal.main_v211)
  ∧ W' (Proc.devRef .tc Cert.ReferenceIdeal.main_v210) = W (Proc.devRef .tc Cert.KernelIdeal.main_v210)
  ∧ W' (Proc.devRef .tc Cert.ReferenceIdeal.main_v29) = W (Proc.devRef .tc Cert.KernelIdeal.main_v29)
  ∧ W' (Proc.devRef .tc Cert.ReferenceIdeal.main_v229) = W (Proc.devRef .tc Cert.KernelIdeal.main_v229)
  ∧ W' (Proc.devRef .tc Cert.ReferenceIdeal.main_v215) = W (Proc.devRef .tc Cert.KernelIdeal.main_v215)
  ∧ W' (Proc.devRef .tc Cert.ReferenceIdeal.main_v213) = W (Proc.devRef .tc Cert.KernelIdeal.main_v213)
  ∧ W' (Proc.devRef .tc Cert.ReferenceIdeal.main_v212) = W (Proc.devRef .tc Cert.KernelIdeal.main_v212)
  ∧ W' (Proc.devRef .tc Cert.ReferenceIdeal.main_v214) = W (Proc.devRef .tc Cert.KernelIdeal.main_v214)

def Agree35 : Prop :=
  Args W W'
  ∧ W' (Proc.devRef .tc Cert.ReferenceIdeal.main_v187) = W (Proc.devRef .tc Cert.KernelIdeal.main_v187)
  ∧ W' (Proc.devRef .tc Cert.ReferenceIdeal.main_v211) = W (Proc.devRef .tc Cert.KernelIdeal.main_v211)
  ∧ W' (Proc.devRef .tc Cert.ReferenceIdeal.main_v210) = W (Proc.devRef .tc Cert.KernelIdeal.main_v210)
  ∧ W' (Proc.devRef .tc Cert.ReferenceIdeal.main_v29) = W (Proc.devRef .tc Cert.KernelIdeal.main_v29)
  ∧ W' (Proc.devRef .tc Cert.ReferenceIdeal.main_v229) = W (Proc.devRef .tc Cert.KernelIdeal.main_v229)
  ∧ W' (Proc.devRef .tc Cert.ReferenceIdeal.main_v215) = W (Proc.devRef .tc Cert.KernelIdeal.main_v215)
  ∧ W' (Proc.devRef .tc Cert.ReferenceIdeal.main_v213) = W (Proc.devRef .tc Cert.KernelIdeal.main_v213)
  ∧ W' (Proc.devRef .tc Cert.ReferenceIdeal.main_v212) = W (Proc.devRef .tc Cert.KernelIdeal.main_v212)
  ∧ W' (Proc.devRef .tc Cert.ReferenceIdeal.main_v240) = W (Proc.devRef .tc Cert.KernelIdeal.main_v240)
  ∧ W' (Proc.devRef .tc Cert.ReferenceIdeal.main_v241) = W (Proc.devRef .tc Cert.KernelIdeal.main_v241)

def Agree36 : Prop :=
  Args W W'
  ∧ W' (Proc.devRef .tc Cert.ReferenceIdeal.main_v187) = W (Proc.devRef .tc Cert.KernelIdeal.main_v187)
  ∧ W' (Proc.devRef .tc Cert.ReferenceIdeal.main_v211) = W (Proc.devRef .tc Cert.KernelIdeal.main_v211)
  ∧ W' (Proc.devRef .tc Cert.ReferenceIdeal.main_v210) = W (Proc.devRef .tc Cert.KernelIdeal.main_v210)
  ∧ W' (Proc.devRef .tc Cert.ReferenceIdeal.main_v29) = W (Proc.devRef .tc Cert.KernelIdeal.main_v29)
  ∧ W' (Proc.devRef .tc Cert.ReferenceIdeal.main_v229) = W (Proc.devRef .tc Cert.KernelIdeal.main_v229)
  ∧ W' (Proc.devRef .tc Cert.ReferenceIdeal.main_v243) = W (Proc.devRef .tc Cert.KernelIdeal.main_v243)
  ∧ W' (Proc.devRef .tc Cert.ReferenceIdeal.main_v215) = W (Proc.devRef .tc Cert.KernelIdeal.main_v215)
  ∧ W' (Proc.devRef .tc Cert.ReferenceIdeal.main_v213) = W (Proc.devRef .tc Cert.KernelIdeal.main_v213)
  ∧ W' (Proc.devRef .tc Cert.ReferenceIdeal.main_v212) = W (Proc.devRef .tc Cert.KernelIdeal.main_v212)

def Agree37 : Prop :=
  Args W W'
  ∧ W' (Proc.devRef .tc Cert.ReferenceIdeal.main_v187) = W (Proc.devRef .tc Cert.KernelIdeal.main_v187)
  ∧ W' (Proc.devRef .tc Cert.ReferenceIdeal.main_v211) = W (Proc.devRef .tc Cert.KernelIdeal.main_v211)
  ∧ W' (Proc.devRef .tc Cert.ReferenceIdeal.main_v210) = W (Proc.devRef .tc Cert.KernelIdeal.main_v210)
  ∧ W' (Proc.devRef .tc Cert.ReferenceIdeal.main_v29) = W (Proc.devRef .tc Cert.KernelIdeal.main_v29)
  ∧ W' (Proc.devRef .tc Cert.ReferenceIdeal.main_v229) = W (Proc.devRef .tc Cert.KernelIdeal.main_v229)
  ∧ W' (Proc.devRef .tc Cert.ReferenceIdeal.main_v243) = W (Proc.devRef .tc Cert.KernelIdeal.main_v243)
  ∧ W' (Proc.devRef .tc Cert.ReferenceIdeal.main_v215) = W (Proc.devRef .tc Cert.KernelIdeal.main_v215)
  ∧ W' (Proc.devRef .tc Cert.ReferenceIdeal.main_v213) = W (Proc.devRef .tc Cert.KernelIdeal.main_v213)
  ∧ W' (Proc.devRef .tc Cert.ReferenceIdeal.main_v254) = W (Proc.devRef .tc Cert.KernelIdeal.main_v254)
  ∧ W' (Proc.devRef .tc Cert.ReferenceIdeal.main_v255) = W (Proc.devRef .tc Cert.KernelIdeal.main_v255)

def Agree38 : Prop :=
  Args W W'
  ∧ W' (Proc.devRef .tc Cert.ReferenceIdeal.main_v187) = W (Proc.devRef .tc Cert.KernelIdeal.main_v187)
  ∧ W' (Proc.devRef .tc Cert.ReferenceIdeal.main_v257) = W (Proc.devRef .tc Cert.KernelIdeal.main_v257)
  ∧ W' (Proc.devRef .tc Cert.ReferenceIdeal.main_v211) = W (Proc.devRef .tc Cert.KernelIdeal.main_v211)
  ∧ W' (Proc.devRef .tc Cert.ReferenceIdeal.main_v210) = W (Proc.devRef .tc Cert.KernelIdeal.main_v210)
  ∧ W' (Proc.devRef .tc Cert.ReferenceIdeal.main_v29) = W (Proc.devRef .tc Cert.KernelIdeal.main_v29)
  ∧ W' (Proc.devRef .tc Cert.ReferenceIdeal.main_v229) = W (Proc.devRef .tc Cert.KernelIdeal.main_v229)
  ∧ W' (Proc.devRef .tc Cert.ReferenceIdeal.main_v243) = W (Proc.devRef .tc Cert.KernelIdeal.main_v243)
  ∧ W' (Proc.devRef .tc Cert.ReferenceIdeal.main_v215) = W (Proc.devRef .tc Cert.KernelIdeal.main_v215)
  ∧ W' (Proc.devRef .tc Cert.ReferenceIdeal.main_v213) = W (Proc.devRef .tc Cert.KernelIdeal.main_v213)

def Agree39 : Prop :=
  Args W W'
  ∧ W' (Proc.devRef .tc Cert.ReferenceIdeal.main_v187) = W (Proc.devRef .tc Cert.KernelIdeal.main_v187)
  ∧ W' (Proc.devRef .tc Cert.ReferenceIdeal.main_v257) = W (Proc.devRef .tc Cert.KernelIdeal.main_v257)
  ∧ W' (Proc.devRef .tc Cert.ReferenceIdeal.main_v211) = W (Proc.devRef .tc Cert.KernelIdeal.main_v211)
  ∧ W' (Proc.devRef .tc Cert.ReferenceIdeal.main_v210) = W (Proc.devRef .tc Cert.KernelIdeal.main_v210)
  ∧ W' (Proc.devRef .tc Cert.ReferenceIdeal.main_v29) = W (Proc.devRef .tc Cert.KernelIdeal.main_v29)
  ∧ W' (Proc.devRef .tc Cert.ReferenceIdeal.main_v229) = W (Proc.devRef .tc Cert.KernelIdeal.main_v229)
  ∧ W' (Proc.devRef .tc Cert.ReferenceIdeal.main_v243) = W (Proc.devRef .tc Cert.KernelIdeal.main_v243)
  ∧ W' (Proc.devRef .tc Cert.ReferenceIdeal.main_v268) = W (Proc.devRef .tc Cert.KernelIdeal.main_v268)
  ∧ W' (Proc.devRef .tc Cert.ReferenceIdeal.main_v269) = W (Proc.devRef .tc Cert.KernelIdeal.main_v269)

def Agree40 : Prop :=
  Args W W'
  ∧ W' (Proc.devRef .tc Cert.ReferenceIdeal.main_v187) = W (Proc.devRef .tc Cert.KernelIdeal.main_v187)
  ∧ W' (Proc.devRef .tc Cert.ReferenceIdeal.main_v257) = W (Proc.devRef .tc Cert.KernelIdeal.main_v257)
  ∧ W' (Proc.devRef .tc Cert.ReferenceIdeal.main_v211) = W (Proc.devRef .tc Cert.KernelIdeal.main_v211)
  ∧ W' (Proc.devRef .tc Cert.ReferenceIdeal.main_v210) = W (Proc.devRef .tc Cert.KernelIdeal.main_v210)
  ∧ W' (Proc.devRef .tc Cert.ReferenceIdeal.main_v271) = W (Proc.devRef .tc Cert.KernelIdeal.main_v271)
  ∧ W' (Proc.devRef .tc Cert.ReferenceIdeal.main_v29) = W (Proc.devRef .tc Cert.KernelIdeal.main_v29)
  ∧ W' (Proc.devRef .tc Cert.ReferenceIdeal.main_v229) = W (Proc.devRef .tc Cert.KernelIdeal.main_v229)
  ∧ W' (Proc.devRef .tc Cert.ReferenceIdeal.main_v243) = W (Proc.devRef .tc Cert.KernelIdeal.main_v243)

def Agree41 : Prop :=
  Args W W'
  ∧ W' (Proc.devRef .tc Cert.ReferenceIdeal.main_v187) = W (Proc.devRef .tc Cert.KernelIdeal.main_v187)
  ∧ W' (Proc.devRef .tc Cert.ReferenceIdeal.main_v293) = W (Proc.devRef .tc Cert.KernelIdeal.main_v293)
  ∧ W' (Proc.devRef .tc Cert.ReferenceIdeal.main_v257) = W (Proc.devRef .tc Cert.KernelIdeal.main_v257)
  ∧ W' (Proc.devRef .tc Cert.ReferenceIdeal.main_v211) = W (Proc.devRef .tc Cert.KernelIdeal.main_v211)
  ∧ W' (Proc.devRef .tc Cert.ReferenceIdeal.main_v290) = W (Proc.devRef .tc Cert.KernelIdeal.main_v290)
  ∧ W' (Proc.devRef .tc Cert.ReferenceIdeal.main_v210) = W (Proc.devRef .tc Cert.KernelIdeal.main_v210)
  ∧ W' (Proc.devRef .tc Cert.ReferenceIdeal.main_v271) = W (Proc.devRef .tc Cert.KernelIdeal.main_v271)
  ∧ W' (Proc.devRef .tc Cert.ReferenceIdeal.main_v29) = W (Proc.devRef .tc Cert.KernelIdeal.main_v29)

def Agree42 : Prop :=
  Args W W'
  ∧ W' (Proc.devRef .tc Cert.ReferenceIdeal.main_v187) = W (Proc.devRef .tc Cert.KernelIdeal.main_v187)
  ∧ W' (Proc.devRef .tc Cert.ReferenceIdeal.main_v312) = W (Proc.devRef .tc Cert.KernelIdeal.main_v312)
  ∧ W' (Proc.devRef .tc Cert.ReferenceIdeal.main_v306) = W (Proc.devRef .tc Cert.KernelIdeal.main_v306)
  ∧ W' (Proc.devRef .tc Cert.ReferenceIdeal.main_c_87) = W (Proc.devRef .tc Cert.KernelIdeal.main_c_87)
  ∧ W' (Proc.devRef .tc Cert.ReferenceIdeal.main_v313) = W (Proc.devRef .tc Cert.KernelIdeal.main_v313)
  ∧ W' (Proc.devRef .tc Cert.ReferenceIdeal.main_c_88) = W (Proc.devRef .tc Cert.KernelIdeal.main_c_88)

def Agree43 : Prop :=
  Args W W'
  ∧ W' (Proc.devRef .tc Cert.ReferenceIdeal.main_v187) = W (Proc.devRef .tc Cert.KernelIdeal.main_v187)
  ∧ W' (Proc.devRef .tc Cert.ReferenceIdeal.main_v312) = W (Proc.devRef .tc Cert.KernelIdeal.main_v312)
  ∧ W' (Proc.devRef .tc Cert.ReferenceIdeal.main_v314) = W (Proc.devRef .tc Cert.KernelIdeal.main_v314)
  ∧ W' (Proc.devRef .tc Cert.ReferenceIdeal.main_v306) = W (Proc.devRef .tc Cert.KernelIdeal.main_v306)

def Agree44 : Prop :=
  Args W W'
  ∧ W' (Proc.devRef .tc Cert.ReferenceIdeal.main_v187) = W (Proc.devRef .tc Cert.KernelIdeal.main_v187)
  ∧ W' (Proc.devRef .tc Cert.ReferenceIdeal.main_v312) = W (Proc.devRef .tc Cert.KernelIdeal.main_v312)
  ∧ W' (Proc.devRef .tc Cert.ReferenceIdeal.main_v314) = W (Proc.devRef .tc Cert.KernelIdeal.main_v314)
  ∧ W' (Proc.devRef .tc Cert.ReferenceIdeal.main_v306) = W (Proc.devRef .tc Cert.KernelIdeal.main_v306)
  ∧ W' (Proc.devRef .tc Cert.ReferenceIdeal.main_c_90) = W (Proc.devRef .tc Cert.KernelIdeal.main_c_90)
  ∧ W' (Proc.devRef .tc Cert.ReferenceIdeal.main_v316) = W (Proc.devRef .tc Cert.KernelIdeal.main_v316)
  ∧ W' (Proc.devRef .tc Cert.ReferenceIdeal.main_c_91) = W (Proc.devRef .tc Cert.KernelIdeal.main_c_91)

def Agree45 : Prop :=
  Args W W'
  ∧ W' (Proc.devRef .tc Cert.ReferenceIdeal.main_v187) = W (Proc.devRef .tc Cert.KernelIdeal.main_v187)
  ∧ W' (Proc.devRef .tc Cert.ReferenceIdeal.main_v312) = W (Proc.devRef .tc Cert.KernelIdeal.main_v312)
  ∧ W' (Proc.devRef .tc Cert.ReferenceIdeal.main_v314) = W (Proc.devRef .tc Cert.KernelIdeal.main_v314)
  ∧ W' (Proc.devRef .tc Cert.ReferenceIdeal.main_v317) = W (Proc.devRef .tc Cert.KernelIdeal.main_v317)
  ∧ W' (Proc.devRef .tc Cert.ReferenceIdeal.main_v306) = W (Proc.devRef .tc Cert.KernelIdeal.main_v306)

def Agree46 : Prop :=
  Args W W'
  ∧ W' (Proc.devRef .tc Cert.ReferenceIdeal.main_v187) = W (Proc.devRef .tc Cert.KernelIdeal.main_v187)
  ∧ W' (Proc.devRef .tc Cert.ReferenceIdeal.main_v345) = W (Proc.devRef .tc Cert.KernelIdeal.main_v345)

macro "read_back" : tactic =>
  `(tactic| (simp only [after_cons, after_nil]
             repeat (first
               | rw [nary3_result] | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Cert.Agree

end
-- ==== Proof.LockA.lean ====
import proofs.«401645_j73761768342118_3_alg».proof.Proof.LockDefs

set_option maxRecDepth 65536
set_option maxHeartbeats 40000000

noncomputable section

namespace Cert.Agree

open Idealize.ShloMosaic Idealize.ShloMosaic.TcCoe Idealize.SL.Sem Idealize.ShloMosaic.StableHlo

variable {F : FTy → Type} [FloatOps F]
variable (W : Valuation Cert.KernelIdeal.τ Cert.KernelIdeal.sig (Elt F)) (W' : Valuation Cert.ReferenceIdeal.τ Cert.ReferenceIdeal.sig (Elt F))

theorem step0 (h : Args W W') :
    Agree1 (after (Cert.KernelIdeal.Around.k0_0 (F := F)) W) (after (Cert.ReferenceIdeal.Lines.q0 (F := F)) W') := by
  dsimp only [Cert.KernelIdeal.Around.k0_0, List.drop, List.take]
  obtain ⟨h0, h1, h2, h3, h4, h5⟩ := h
  refine ⟨⟨?_, ?_, ?_, ?_, ?_, ?_⟩, ?_⟩ <;>
    (read_back; (try simp only [h0, h1, h2, h3, h4, h5]); (try rw [h0]); (try rfl))

theorem step1 (h : Agree1 W W') :
    Agree2 (after (Cert.KernelIdeal.Around.k0_1 (F := F)) W) (after (Cert.ReferenceIdeal.Lines.q1 (F := F)) W') := by
  dsimp only [Cert.KernelIdeal.Around.k0_1, List.drop, List.take]
  obtain ⟨⟨h0, h1, h2, h3, h4, h5⟩, h6⟩ := h
  refine ⟨⟨?_, ?_, ?_, ?_, ?_, ?_⟩, ?_, ?_⟩ <;>
    (read_back; (try simp only [h0, h1, h2, h3, h4, h5, h6]); (try rw [h0]); (try rfl))

theorem step2 (h : Agree2 W W') :
    Agree3 (after (Cert.KernelIdeal.Around.k0_2 (F := F)) W) (after (Cert.ReferenceIdeal.Lines.q2 (F := F)) W') := by
  dsimp only [Cert.KernelIdeal.Around.k0_2, List.drop, List.take]
  obtain ⟨⟨h0, h1, h2, h3, h4, h5⟩, h6, h7⟩ := h
  refine ⟨⟨?_, ?_, ?_, ?_, ?_, ?_⟩, ?_, ?_, ?_⟩ <;>
    (read_back; (try simp only [h0, h1, h2, h3, h4, h5, h6, h7]); (try rw [h0]); (try rfl))

theorem step3 (h : Agree3 W W') :
    Agree4 (after (Cert.KernelIdeal.Around.k0_3 (F := F)) W) (after (Cert.ReferenceIdeal.Lines.q3 (F := F)) W') := by
  dsimp only [Cert.KernelIdeal.Around.k0_3, List.drop, List.take]
  obtain ⟨⟨h0, h1, h2, h3, h4, h5⟩, h6, h7, h8⟩ := h
  refine ⟨⟨?_, ?_, ?_, ?_, ?_, ?_⟩, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8]) <;> (try rfl)

theorem step4 (h : Agree4 W W') :
    Agree5 (after (Cert.KernelIdeal.Gen.hostOps0_1 (F := F)) W) (after (Cert.ReferenceIdeal.Lines.q4 (F := F)) W') := by
  obtain ⟨⟨h0, h1, h2, h3, h4, h5⟩, h6, h7, h8, h9, h10, h11, h12, h13⟩ := h
  refine ⟨⟨?_, ?_, ?_, ?_, ?_, ?_⟩, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13]) <;> (try rfl)

theorem step5 (h : Agree5 W W') :
    Agree6 (after (Cert.KernelIdeal.Gen.hostOps0_2 (F := F)) W) (after (Cert.ReferenceIdeal.Lines.q5 (F := F)) W') := by
  obtain ⟨⟨h0, h1, h2, h3, h4, h5⟩, h6, h7, h8, h9, h10, h11⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11]) <;> (try rfl)

theorem step6 (h : Agree6 W W') :
    Agree7 (after (Cert.KernelIdeal.Gen.hostOps0_3 (F := F)) W) (after (Cert.ReferenceIdeal.Lines.q6 (F := F)) W') := by
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

theorem step7 (h : Agree7 W W') :
    Agree8 (after (Cert.KernelIdeal.Gen.hostOps0_4 (F := F)) W) (after (Cert.ReferenceIdeal.Lines.q7 (F := F)) W') := by
  obtain ⟨⟨h0, h1, h2, h3, h4, h5⟩, h6, h7, h8, h9, h10, h11, h12⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12]) <;> (try rfl)

theorem step8 (h : Agree8 W W') :
    Agree9 (after (Cert.KernelIdeal.Gen.hostOps0_5 (F := F)) W) (after (Cert.ReferenceIdeal.Lines.q8 (F := F)) W') := by
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> (try rfl)

theorem step9 (h : Agree9 W W') :
    Agree10 (after (Cert.KernelIdeal.Gen.hostOps0_6 (F := F)) W) (after (Cert.ReferenceIdeal.Lines.q9 (F := F)) W') := by
  obtain ⟨⟨h0, h1, h2, h3, h4, h5⟩, h6, h7, h8, h9, h10, h11, h12, h13⟩ := h
  refine ⟨⟨?_, ?_, ?_, ?_, ?_, ?_⟩, ?_, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13]) <;> (try rfl)

theorem step10 (h : Agree10 W W') :
    Agree11 (after (Cert.KernelIdeal.Gen.hostOps0_7 (F := F)) W) (after (Cert.ReferenceIdeal.Lines.q10 (F := F)) W') := by
  obtain ⟨⟨h0, h1, h2, h3, h4, h5⟩, h6, h7, h8, h9, h10, h11, h12, h13, h14, h15, h16⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15, h16]) <;> (try rfl)

end Cert.Agree

end
-- ==== Proof.LockB.lean ====
import proofs.«401645_j73761768342118_3_alg».proof.Proof.LockDefs

set_option maxRecDepth 65536
set_option maxHeartbeats 40000000

noncomputable section

namespace Cert.Agree

open Idealize.ShloMosaic Idealize.ShloMosaic.TcCoe Idealize.SL.Sem Idealize.ShloMosaic.StableHlo

variable {F : FTy → Type} [FloatOps F]
variable (W : Valuation Cert.KernelIdeal.τ Cert.KernelIdeal.sig (Elt F)) (W' : Valuation Cert.ReferenceIdeal.τ Cert.ReferenceIdeal.sig (Elt F))

theorem step11 (h : Agree11 W W') :
    Agree12 (after (Cert.KernelIdeal.Around.k8_0 (F := F)) W) (after (Cert.ReferenceIdeal.Lines.q11 (F := F)) W') := by
  dsimp only [Cert.KernelIdeal.Around.k8_0, List.drop, List.take]
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

theorem step12 (h : Agree12 W W') :
    Agree13 (after (Cert.KernelIdeal.Around.k8_1 (F := F)) W) (after (Cert.ReferenceIdeal.Lines.q12 (F := F)) W') := by
  dsimp only [Cert.KernelIdeal.Around.k8_1, List.drop, List.take]
  obtain ⟨⟨h0, h1, h2, h3, h4, h5⟩, h6, h7, h8, h9, h10, h11, h12, h13, h14, h15, h16⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15, h16]) <;> ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]); (try rw [h14]); (try rw [h15]); (try rw [h16]); (try rfl))

theorem step13 (h : Agree13 W W') :
    Agree14 (after (Cert.KernelIdeal.Around.k8_2 (F := F)) W) (after (Cert.ReferenceIdeal.Lines.q13 (F := F)) W') := by
  dsimp only [Cert.KernelIdeal.Around.k8_2, List.drop, List.take]
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> (try rfl)

theorem step14 (h : Agree14 W W') :
    Agree15 (after (Cert.KernelIdeal.Around.k8_3 (F := F)) W) (after (Cert.ReferenceIdeal.Lines.q14 (F := F)) W') := by
  dsimp only [Cert.KernelIdeal.Around.k8_3, List.drop, List.take]
  obtain ⟨⟨h0, h1, h2, h3, h4, h5⟩, h6, h7, h8, h9, h10, h11, h12, h13, h14, h15, h16⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15, h16]) <;> ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]); (try rw [h14]); (try rw [h15]); (try rw [h16]); (try rfl))

theorem step15 (h : Agree15 W W') :
    Agree16 (after (Cert.KernelIdeal.Around.k8_4 (F := F)) W) (after (Cert.ReferenceIdeal.Lines.q15 (F := F)) W') := by
  dsimp only [Cert.KernelIdeal.Around.k8_4, List.drop, List.take]
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> (try rfl)

theorem step16 (h : Agree16 W W') :
    Agree17 (after (Cert.KernelIdeal.Around.k8_5 (F := F)) W) (after (Cert.ReferenceIdeal.Lines.q16 (F := F)) W') := by
  dsimp only [Cert.KernelIdeal.Around.k8_5, List.drop, List.take]
  obtain ⟨⟨h0, h1, h2, h3, h4, h5⟩, h6, h7, h8, h9, h10, h11, h12, h13, h14, h15, h16⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15, h16]) <;> ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]); (try rw [h14]); (try rw [h15]); (try rw [h16]); (try rfl))

theorem step17 (h : Agree17 W W') :
    Agree18 (after (Cert.KernelIdeal.Around.k8_6 (F := F)) W) (after (Cert.ReferenceIdeal.Lines.q17 (F := F)) W') := by
  dsimp only [Cert.KernelIdeal.Around.k8_6, List.drop, List.take]
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> (try rfl)

theorem step18 (h : Agree18 W W') :
    Agree19 (after (Cert.KernelIdeal.Around.k8_7 (F := F)) W) (after (Cert.ReferenceIdeal.Lines.q18 (F := F)) W') := by
  dsimp only [Cert.KernelIdeal.Around.k8_7, List.drop, List.take]
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]); (try rw [h14]); (try rw [h15]); (try rfl))

theorem step19 (h : Agree19 W W') :
    Agree20 (after (Cert.KernelIdeal.Around.k8_8 (F := F)) W) (after (Cert.ReferenceIdeal.Lines.q19 (F := F)) W') := by
  dsimp only [Cert.KernelIdeal.Around.k8_8, List.drop, List.take]
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

theorem step20 (h : Agree20 W W') :
    Agree21 (after (Cert.KernelIdeal.Around.k8_9 (F := F)) W) (after (Cert.ReferenceIdeal.Lines.q20 (F := F)) W') := by
  dsimp only [Cert.KernelIdeal.Around.k8_9, List.drop, List.take]
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

end Cert.Agree

end
-- ==== Proof.LockC.lean ====
import proofs.«401645_j73761768342118_3_alg».proof.Proof.LockDefs

set_option maxRecDepth 65536
set_option maxHeartbeats 40000000

noncomputable section

namespace Cert.Agree

open Idealize.ShloMosaic Idealize.ShloMosaic.TcCoe Idealize.SL.Sem Idealize.ShloMosaic.StableHlo

variable {F : FTy → Type} [FloatOps F]
variable (W : Valuation Cert.KernelIdeal.τ Cert.KernelIdeal.sig (Elt F)) (W' : Valuation Cert.ReferenceIdeal.τ Cert.ReferenceIdeal.sig (Elt F))

theorem step21 (h : Agree21 W W') :
    Agree22 (after (Cert.KernelIdeal.Gen.hostOps0_9 (F := F)) W) (after (Cert.ReferenceIdeal.Lines.q21 (F := F)) W') := by
  obtain ⟨⟨h0, h1, h2, h3, h4, h5⟩, h6, h7, h8, h9, h10, h11, h12, h13⟩ := h
  refine ⟨⟨?_, ?_, ?_, ?_, ?_, ?_⟩, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13]) <;> (try rfl)

theorem step22 (h : Agree22 W W') :
    Agree23 (after (Cert.KernelIdeal.Gen.hostOps0_10 (F := F)) W) (after (Cert.ReferenceIdeal.Lines.q22 (F := F)) W') := by
  obtain ⟨⟨h0, h1, h2, h3, h4, h5⟩, h6, h7, h8, h9, h10, h11⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11]) <;> (try rfl)

theorem step23 (h : Agree23 W W') :
    Agree24 (after (Cert.KernelIdeal.Gen.hostOps0_11 (F := F)) W) (after (Cert.ReferenceIdeal.Lines.q23 (F := F)) W') := by
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

theorem step24 (h : Agree24 W W') :
    Agree25 (after (Cert.KernelIdeal.Gen.hostOps0_12 (F := F)) W) (after (Cert.ReferenceIdeal.Lines.q24 (F := F)) W') := by
  obtain ⟨⟨h0, h1, h2, h3, h4, h5⟩, h6, h7, h8, h9, h10, h11, h12⟩ := h
  refine ⟨⟨?_, ?_, ?_, ?_, ?_, ?_⟩, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12]) <;> (try rfl)

theorem step25 (h : Agree25 W W') :
    Agree26 (after (Cert.KernelIdeal.Gen.hostOps0_13 (F := F)) W) (after (Cert.ReferenceIdeal.Lines.q25 (F := F)) W') := by
  obtain ⟨⟨h0, h1, h2, h3, h4, h5⟩, h6, h7, h8, h9, h10, h11, h12⟩ := h
  refine ⟨⟨?_, ?_, ?_, ?_, ?_, ?_⟩, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12]) <;> (try rfl)

theorem step26 (h : Agree26 W W') :
    Agree27 (after (Cert.KernelIdeal.Gen.hostOps0_14 (F := F)) W) (after (Cert.ReferenceIdeal.Lines.q26 (F := F)) W') := by
  obtain ⟨⟨h0, h1, h2, h3, h4, h5⟩, h6, h7, h8, h9, h10⟩ := h
  refine ⟨⟨?_, ?_, ?_, ?_, ?_, ?_⟩, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10]) <;> (try rfl)

theorem step27 (h : Agree27 W W') :
    Agree28 (after (Cert.KernelIdeal.Gen.hostOps0_15 (F := F)) W) (after (Cert.ReferenceIdeal.Lines.q27 (F := F)) W') := by
  obtain ⟨⟨h0, h1, h2, h3, h4, h5⟩, h6, h7, h8, h9, h10, h11, h12, h13⟩ := h
  refine ⟨⟨?_, ?_, ?_, ?_, ?_, ?_⟩, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13]) <;> (try rfl)

theorem step28 (h : Agree28 W W') :
    Agree29 (after (Cert.KernelIdeal.Gen.hostOps0_16 (F := F)) W) (after (Cert.ReferenceIdeal.Lines.q28 (F := F)) W') := by
  obtain ⟨⟨h0, h1, h2, h3, h4, h5⟩, h6, h7, h8, h9, h10, h11⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11]) <;> (try rfl)

theorem step29 (h : Agree29 W W') :
    Agree30 (after (Cert.KernelIdeal.Gen.hostOps0_17 (F := F)) W) (after (Cert.ReferenceIdeal.Lines.q29 (F := F)) W') := by
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

theorem step30 (h : Agree30 W W') :
    Agree31 (after (Cert.KernelIdeal.Gen.hostOps0_18 (F := F)) W) (after (Cert.ReferenceIdeal.Lines.q30 (F := F)) W') := by
  obtain ⟨⟨h0, h1, h2, h3, h4, h5⟩, h6, h7, h8, h9, h10, h11, h12⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12]) <;> (try rfl)

theorem step31 (h : Agree31 W W') :
    Agree32 (after (Cert.KernelIdeal.Gen.hostOps0_19 (F := F)) W) (after (Cert.ReferenceIdeal.Lines.q31 (F := F)) W') := by
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> (try rfl)

end Cert.Agree

end
-- ==== Proof.LockD.lean ====
import proofs.«401645_j73761768342118_3_alg».proof.Proof.LockDefs

set_option maxRecDepth 65536
set_option maxHeartbeats 40000000

noncomputable section

namespace Cert.Agree

open Idealize.ShloMosaic Idealize.ShloMosaic.TcCoe Idealize.SL.Sem Idealize.ShloMosaic.StableHlo

variable {F : FTy → Type} [FloatOps F]
variable (W : Valuation Cert.KernelIdeal.τ Cert.KernelIdeal.sig (Elt F)) (W' : Valuation Cert.ReferenceIdeal.τ Cert.ReferenceIdeal.sig (Elt F))

theorem step32 (h : Agree32 W W') :
    Agree33 (after (Cert.KernelIdeal.Around.k20_0 (F := F)) W) (after (Cert.ReferenceIdeal.Lines.q32 (F := F)) W') := by
  dsimp only [Cert.KernelIdeal.Around.k20_0, List.drop, List.take]
  obtain ⟨⟨h0, h1, h2, h3, h4, h5⟩, h6, h7, h8, h9, h10, h11, h12, h13⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13]) <;> (try rfl)

theorem step33 (h : Agree33 W W') :
    Agree34 (after (Cert.KernelIdeal.Around.k20_1 (F := F)) W) (after (Cert.ReferenceIdeal.Lines.q33 (F := F)) W') := by
  dsimp only [Cert.KernelIdeal.Around.k20_1, List.drop, List.take]
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]); (try rw [h14]); (try rw [h15]); (try rfl))

theorem step34 (h : Agree34 W W') :
    Agree35 (after (Cert.KernelIdeal.Around.k20_2 (F := F)) W) (after (Cert.ReferenceIdeal.Lines.q34 (F := F)) W') := by
  dsimp only [Cert.KernelIdeal.Around.k20_2, List.drop, List.take]
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

theorem step35 (h : Agree35 W W') :
    Agree36 (after (Cert.KernelIdeal.Around.k20_3 (F := F)) W) (after (Cert.ReferenceIdeal.Lines.q35 (F := F)) W') := by
  dsimp only [Cert.KernelIdeal.Around.k20_3, List.drop, List.take]
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]); (try rw [h14]); (try rw [h15]); (try rfl))

theorem step36 (h : Agree36 W W') :
    Agree37 (after (Cert.KernelIdeal.Around.k20_4 (F := F)) W) (after (Cert.ReferenceIdeal.Lines.q36 (F := F)) W') := by
  dsimp only [Cert.KernelIdeal.Around.k20_4, List.drop, List.take]
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

theorem step37 (h : Agree37 W W') :
    Agree38 (after (Cert.KernelIdeal.Around.k20_5 (F := F)) W) (after (Cert.ReferenceIdeal.Lines.q37 (F := F)) W') := by
  dsimp only [Cert.KernelIdeal.Around.k20_5, List.drop, List.take]
  obtain ⟨⟨h0, h1, h2, h3, h4, h5⟩, h6, h7, h8, h9, h10, h11, h12, h13, h14, h15⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14, h15]) <;> ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]); (try rw [h14]); (try rw [h15]); (try rfl))

theorem step38 (h : Agree38 W W') :
    Agree39 (after (Cert.KernelIdeal.Around.k20_6 (F := F)) W) (after (Cert.ReferenceIdeal.Lines.q38 (F := F)) W') := by
  dsimp only [Cert.KernelIdeal.Around.k20_6, List.drop, List.take]
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> (try rfl)

theorem step39 (h : Agree39 W W') :
    Agree40 (after (Cert.KernelIdeal.Around.k20_7 (F := F)) W) (after (Cert.ReferenceIdeal.Lines.q39 (F := F)) W') := by
  dsimp only [Cert.KernelIdeal.Around.k20_7, List.drop, List.take]
  obtain ⟨⟨h0, h1, h2, h3, h4, h5⟩, h6, h7, h8, h9, h10, h11, h12, h13, h14⟩ := h
  refine ⟨⟨?_, ?_, ?_, ?_, ?_, ?_⟩, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13, h14]) <;> ((try rw [h0]); (try rw [h1]); (try rw [h2]); (try rw [h3]); (try rw [h4]); (try rw [h5]); (try rw [h6]); (try rw [h7]); (try rw [h8]); (try rw [h9]); (try rw [h10]); (try rw [h11]); (try rw [h12]); (try rw [h13]); (try rw [h14]); (try rfl))

theorem step40 (h : Agree40 W W') :
    Agree41 (after (Cert.KernelIdeal.Around.k20_8 (F := F)) W) (after (Cert.ReferenceIdeal.Lines.q40 (F := F)) W') := by
  dsimp only [Cert.KernelIdeal.Around.k20_8, List.drop, List.take]
  obtain ⟨⟨h0, h1, h2, h3, h4, h5⟩, h6, h7, h8, h9, h10, h11, h12, h13⟩ := h
  refine ⟨⟨?_, ?_, ?_, ?_, ?_, ?_⟩, ?_, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13]) <;> (try rfl)

theorem step41 (h : Agree41 W W') :
    Agree42 (after (Cert.KernelIdeal.Around.k20_9 (F := F)) W) (after (Cert.ReferenceIdeal.Lines.q41 (F := F)) W') := by
  dsimp only [Cert.KernelIdeal.Around.k20_9, List.drop, List.take]
  obtain ⟨⟨h0, h1, h2, h3, h4, h5⟩, h6, h7, h8, h9, h10, h11, h12, h13⟩ := h
  refine ⟨⟨?_, ?_, ?_, ?_, ?_, ?_⟩, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12, h13]) <;> (try rfl)

theorem step42 (h : Agree42 W W') :
    Agree43 (after (Cert.KernelIdeal.Gen.hostOps0_21 (F := F)) W) (after (Cert.ReferenceIdeal.Lines.q42 (F := F)) W') := by
  obtain ⟨⟨h0, h1, h2, h3, h4, h5⟩, h6, h7, h8, h9, h10, h11⟩ := h
  refine ⟨⟨?_, ?_, ?_, ?_, ?_, ?_⟩, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11]) <;> (try rfl)

theorem step43 (h : Agree43 W W') :
    Agree44 (after (Cert.KernelIdeal.Gen.hostOps0_22 (F := F)) W) (after (Cert.ReferenceIdeal.Lines.q43 (F := F)) W') := by
  obtain ⟨⟨h0, h1, h2, h3, h4, h5⟩, h6, h7, h8, h9⟩ := h
  refine ⟨⟨?_, ?_, ?_, ?_, ?_, ?_⟩, ?_, ?_, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9]) <;> (try rfl)

theorem step44 (h : Agree44 W W') :
    Agree45 (after (Cert.KernelIdeal.Gen.hostOps0_23 (F := F)) W) (after (Cert.ReferenceIdeal.Lines.q44 (F := F)) W') := by
  obtain ⟨⟨h0, h1, h2, h3, h4, h5⟩, h6, h7, h8, h9, h10, h11, h12⟩ := h
  refine ⟨⟨?_, ?_, ?_, ?_, ?_, ?_⟩, ?_, ?_, ?_, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10, h11, h12]) <;> (try rfl)

theorem step45 (h : Agree45 W W') :
    Agree46 (after (Cert.KernelIdeal.Gen.hostOps0_24 (F := F)) W) (after (Cert.ReferenceIdeal.Lines.q45 (F := F)) W') := by
  obtain ⟨⟨h0, h1, h2, h3, h4, h5⟩, h6, h7, h8, h9, h10⟩ := h
  refine ⟨⟨?_, ?_, ?_, ?_, ?_, ?_⟩, ?_, ?_⟩ <;>
    (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', tri_zero, tri_one, tri_two, h0, h1, h2, h3, h4, h5, h6, h7, h8, h9, h10]) <;> (try rfl)

end Cert.Agree

end
-- ==== Proof.LockChain.lean ====
import proofs.«401645_j73761768342118_3_alg».proof.Proof.LockA
import proofs.«401645_j73761768342118_3_alg».proof.Proof.LockB
import proofs.«401645_j73761768342118_3_alg».proof.Proof.LockC
import proofs.«401645_j73761768342118_3_alg».proof.Proof.LockD

set_option maxRecDepth 65536

noncomputable section

namespace Cert.Agree

open Idealize.ShloMosaic Idealize.ShloMosaic.TcCoe Idealize.SL.Sem Idealize.ShloMosaic.StableHlo

variable {F : FTy → Type} [FloatOps F]

def NK (M : Valuation Cert.KernelIdeal.τ Cert.KernelIdeal.sig (Elt F)) : Valuation Cert.KernelIdeal.τ Cert.KernelIdeal.sig (Elt F) :=
  after (Cert.KernelIdeal.Gen.hostOps0_24 (F := F)) (after (Cert.KernelIdeal.Gen.hostOps0_23 (F := F)) (after (Cert.KernelIdeal.Gen.hostOps0_22 (F := F)) (after (Cert.KernelIdeal.Gen.hostOps0_21 (F := F)) (after (Cert.KernelIdeal.Around.k20_9 (F := F)) (after (Cert.KernelIdeal.Around.k20_8 (F := F)) (after (Cert.KernelIdeal.Around.k20_7 (F := F)) (after (Cert.KernelIdeal.Around.k20_6 (F := F)) (after (Cert.KernelIdeal.Around.k20_5 (F := F)) (after (Cert.KernelIdeal.Around.k20_4 (F := F)) (after (Cert.KernelIdeal.Around.k20_3 (F := F)) (after (Cert.KernelIdeal.Around.k20_2 (F := F)) (after (Cert.KernelIdeal.Around.k20_1 (F := F)) (after (Cert.KernelIdeal.Around.k20_0 (F := F)) (after (Cert.KernelIdeal.Gen.hostOps0_19 (F := F)) (after (Cert.KernelIdeal.Gen.hostOps0_18 (F := F)) (after (Cert.KernelIdeal.Gen.hostOps0_17 (F := F)) (after (Cert.KernelIdeal.Gen.hostOps0_16 (F := F)) (after (Cert.KernelIdeal.Gen.hostOps0_15 (F := F)) (after (Cert.KernelIdeal.Gen.hostOps0_14 (F := F)) (after (Cert.KernelIdeal.Gen.hostOps0_13 (F := F)) (after (Cert.KernelIdeal.Gen.hostOps0_12 (F := F)) (after (Cert.KernelIdeal.Gen.hostOps0_11 (F := F)) (after (Cert.KernelIdeal.Gen.hostOps0_10 (F := F)) (after (Cert.KernelIdeal.Gen.hostOps0_9 (F := F)) (after (Cert.KernelIdeal.Around.k8_9 (F := F)) (after (Cert.KernelIdeal.Around.k8_8 (F := F)) (after (Cert.KernelIdeal.Around.k8_7 (F := F)) (after (Cert.KernelIdeal.Around.k8_6 (F := F)) (after (Cert.KernelIdeal.Around.k8_5 (F := F)) (after (Cert.KernelIdeal.Around.k8_4 (F := F)) (after (Cert.KernelIdeal.Around.k8_3 (F := F)) (after (Cert.KernelIdeal.Around.k8_2 (F := F)) (after (Cert.KernelIdeal.Around.k8_1 (F := F)) (after (Cert.KernelIdeal.Around.k8_0 (F := F)) (after (Cert.KernelIdeal.Gen.hostOps0_7 (F := F)) (after (Cert.KernelIdeal.Gen.hostOps0_6 (F := F)) (after (Cert.KernelIdeal.Gen.hostOps0_5 (F := F)) (after (Cert.KernelIdeal.Gen.hostOps0_4 (F := F)) (after (Cert.KernelIdeal.Gen.hostOps0_3 (F := F)) (after (Cert.KernelIdeal.Gen.hostOps0_2 (F := F)) (after (Cert.KernelIdeal.Gen.hostOps0_1 (F := F)) (after (Cert.KernelIdeal.Around.k0_3 (F := F)) (after (Cert.KernelIdeal.Around.k0_2 (F := F)) (after (Cert.KernelIdeal.Around.k0_1 (F := F)) (after (Cert.KernelIdeal.Around.k0_0 (F := F)) (M))))))))))))))))))))))))))))))))))))))))))))))

def NR (M' : Valuation Cert.ReferenceIdeal.τ Cert.ReferenceIdeal.sig (Elt F)) : Valuation Cert.ReferenceIdeal.τ Cert.ReferenceIdeal.sig (Elt F) :=
  after (Cert.ReferenceIdeal.Lines.q45 (F := F)) (after (Cert.ReferenceIdeal.Lines.q44 (F := F)) (after (Cert.ReferenceIdeal.Lines.q43 (F := F)) (after (Cert.ReferenceIdeal.Lines.q42 (F := F)) (after (Cert.ReferenceIdeal.Lines.q41 (F := F)) (after (Cert.ReferenceIdeal.Lines.q40 (F := F)) (after (Cert.ReferenceIdeal.Lines.q39 (F := F)) (after (Cert.ReferenceIdeal.Lines.q38 (F := F)) (after (Cert.ReferenceIdeal.Lines.q37 (F := F)) (after (Cert.ReferenceIdeal.Lines.q36 (F := F)) (after (Cert.ReferenceIdeal.Lines.q35 (F := F)) (after (Cert.ReferenceIdeal.Lines.q34 (F := F)) (after (Cert.ReferenceIdeal.Lines.q33 (F := F)) (after (Cert.ReferenceIdeal.Lines.q32 (F := F)) (after (Cert.ReferenceIdeal.Lines.q31 (F := F)) (after (Cert.ReferenceIdeal.Lines.q30 (F := F)) (after (Cert.ReferenceIdeal.Lines.q29 (F := F)) (after (Cert.ReferenceIdeal.Lines.q28 (F := F)) (after (Cert.ReferenceIdeal.Lines.q27 (F := F)) (after (Cert.ReferenceIdeal.Lines.q26 (F := F)) (after (Cert.ReferenceIdeal.Lines.q25 (F := F)) (after (Cert.ReferenceIdeal.Lines.q24 (F := F)) (after (Cert.ReferenceIdeal.Lines.q23 (F := F)) (after (Cert.ReferenceIdeal.Lines.q22 (F := F)) (after (Cert.ReferenceIdeal.Lines.q21 (F := F)) (after (Cert.ReferenceIdeal.Lines.q20 (F := F)) (after (Cert.ReferenceIdeal.Lines.q19 (F := F)) (after (Cert.ReferenceIdeal.Lines.q18 (F := F)) (after (Cert.ReferenceIdeal.Lines.q17 (F := F)) (after (Cert.ReferenceIdeal.Lines.q16 (F := F)) (after (Cert.ReferenceIdeal.Lines.q15 (F := F)) (after (Cert.ReferenceIdeal.Lines.q14 (F := F)) (after (Cert.ReferenceIdeal.Lines.q13 (F := F)) (after (Cert.ReferenceIdeal.Lines.q12 (F := F)) (after (Cert.ReferenceIdeal.Lines.q11 (F := F)) (after (Cert.ReferenceIdeal.Lines.q10 (F := F)) (after (Cert.ReferenceIdeal.Lines.q9 (F := F)) (after (Cert.ReferenceIdeal.Lines.q8 (F := F)) (after (Cert.ReferenceIdeal.Lines.q7 (F := F)) (after (Cert.ReferenceIdeal.Lines.q6 (F := F)) (after (Cert.ReferenceIdeal.Lines.q5 (F := F)) (after (Cert.ReferenceIdeal.Lines.q4 (F := F)) (after (Cert.ReferenceIdeal.Lines.q3 (F := F)) (after (Cert.ReferenceIdeal.Lines.q2 (F := F)) (after (Cert.ReferenceIdeal.Lines.q1 (F := F)) (after (Cert.ReferenceIdeal.Lines.q0 (F := F)) (M'))))))))))))))))))))))))))))))))))))))))))))))

/-- The pieces in order carry the agreement on the arguments to the agreement on the two results. -/
theorem chain (M : Valuation Cert.KernelIdeal.τ Cert.KernelIdeal.sig (Elt F)) (M' : Valuation Cert.ReferenceIdeal.τ Cert.ReferenceIdeal.sig (Elt F)) (h0 : Args M M') :
    Agree46 (NK M) (NR M') :=
  step45 _ _ (step44 _ _ (step43 _ _ (step42 _ _ (step41 _ _ (step40 _ _ (step39 _ _ (step38 _ _ (step37 _ _ (step36 _ _ (step35 _ _ (step34 _ _ (step33 _ _ (step32 _ _ (step31 _ _ (step30 _ _ (step29 _ _ (step28 _ _ (step27 _ _ (step26 _ _ (step25 _ _ (step24 _ _ (step23 _ _ (step22 _ _ (step21 _ _ (step20 _ _ (step19 _ _ (step18 _ _ (step17 _ _ (step16 _ _ (step15 _ _ (step14 _ _ (step13 _ _ (step12 _ _ (step11 _ _ (step10 _ _ (step9 _ _ (step8 _ _ (step7 _ _ (step6 _ _ (step5 _ _ (step4 _ _ (step3 _ _ (step2 _ _ (step1 _ _ (step0 _ _ (h0))))))))))))))))))))))))))))))))))))))))))))))

theorem pieces_hostOps0 (W : Valuation Cert.KernelIdeal.τ Cert.KernelIdeal.sig (Elt F)) :
    after (Cert.KernelIdeal.Gen.hostOps0 (F := F)) W = after Cert.KernelIdeal.Around.k0_3 (after Cert.KernelIdeal.Around.k0_2 (after Cert.KernelIdeal.Around.k0_1 (after Cert.KernelIdeal.Around.k0_0 W))) := by
  rw [Cert.KernelIdeal.Around.hostOps0_split, after_append, after_append, after_append]

theorem pieces_hostOps0_8 (W : Valuation Cert.KernelIdeal.τ Cert.KernelIdeal.sig (Elt F)) :
    after (Cert.KernelIdeal.Gen.hostOps0_8 (F := F)) W = after Cert.KernelIdeal.Around.k8_9 (after Cert.KernelIdeal.Around.k8_8 (after Cert.KernelIdeal.Around.k8_7 (after Cert.KernelIdeal.Around.k8_6 (after Cert.KernelIdeal.Around.k8_5 (after Cert.KernelIdeal.Around.k8_4 (after Cert.KernelIdeal.Around.k8_3 (after Cert.KernelIdeal.Around.k8_2 (after Cert.KernelIdeal.Around.k8_1 (after Cert.KernelIdeal.Around.k8_0 W))))))))) := by
  rw [Cert.KernelIdeal.Around.hostOps0_8_split, after_append, after_append, after_append, after_append, after_append, after_append, after_append, after_append, after_append]

theorem pieces_hostOps0_20 (W : Valuation Cert.KernelIdeal.τ Cert.KernelIdeal.sig (Elt F)) :
    after (Cert.KernelIdeal.Gen.hostOps0_20 (F := F)) W = after Cert.KernelIdeal.Around.k20_9 (after Cert.KernelIdeal.Around.k20_8 (after Cert.KernelIdeal.Around.k20_7 (after Cert.KernelIdeal.Around.k20_6 (after Cert.KernelIdeal.Around.k20_5 (after Cert.KernelIdeal.Around.k20_4 (after Cert.KernelIdeal.Around.k20_3 (after Cert.KernelIdeal.Around.k20_2 (after Cert.KernelIdeal.Around.k20_1 (after Cert.KernelIdeal.Around.k20_0 W))))))))) := by
  rw [Cert.KernelIdeal.Around.hostOps0_20_split, after_append, after_append, after_append, after_append, after_append, after_append, after_append, after_append, after_append]

theorem kernel_nest (M : Valuation Cert.KernelIdeal.τ Cert.KernelIdeal.sig (Elt F)) :
    after (Cert.KernelIdeal.Around.before (F := F)).flatten M = after (Cert.KernelIdeal.Gen.hostOps0_25 (F := F)) (NK M) := by
  simp only [Cert.KernelIdeal.Around.before, List.flatten_cons, List.flatten_nil, List.append_nil, after_append]
  rw [pieces_hostOps0, pieces_hostOps0_8, pieces_hostOps0_20]
  rfl

theorem ref_nest (M' : Valuation Cert.ReferenceIdeal.τ Cert.ReferenceIdeal.sig (Elt F)) :
    after (Cert.ReferenceIdeal.Lines.ops (F := F)) M' = after (Cert.ReferenceIdeal.Lines.qlast (F := F)) (NR M') := by
  simp only [Cert.ReferenceIdeal.Lines.ops, Cert.ReferenceIdeal.Lines.pieces, List.flatten_cons, List.flatten_nil, List.append_nil, after_append]
  rfl

/-- The reference's density feature is the kernel program's. -/
theorem sigma_agree (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ)
    (c : Dev Cert.KernelIdeal.nD) (h : ArgsAgree m m' c) :
    after (Cert.ReferenceIdeal.Lines.ops (F := F)) (launchContents m' c) (Proc.devRef .tc Cert.ReferenceIdeal.main_v187) = Cert.KernelIdeal.Around.V m c Cert.KernelIdeal.main_v187 := by
  show after (Cert.ReferenceIdeal.Lines.ops (F := F)) (launchContents m' c) (Proc.devRef .tc Cert.ReferenceIdeal.main_v187) = after (Cert.KernelIdeal.Around.before (F := F)).flatten (fun b => m (c, b)) (Proc.devRef .tc Cert.KernelIdeal.main_v187)
  rw [ref_nest, kernel_nest]
  obtain ⟨-, hs, -⟩ := chain (fun b => m (c, b)) (launchContents m' c) h
  simp (disch := decide) only [after_cons, after_nil, binary_result_ne', unary_result_ne', hs]

/-- The reference's second result is its contraction applied to the kernel program's feature array and weights. -/
theorem feat_agree (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ)
    (c : Dev Cert.KernelIdeal.nD) (h : ArgsAgree m m' c) :
    after (Cert.ReferenceIdeal.Lines.ops (F := F)) (launchContents m' c) (Proc.devRef .tc Cert.ReferenceIdeal.main_v346)
      = Host.dotGeneral (F := F) (φ₁ := .f32) (φ₂ := .f32) Cert.ReferenceIdeal.dot_S144x500000_S27x144_S500000x27_0_1_1_0_n_n none (Cert.KernelIdeal.Around.V m c Cert.KernelIdeal.main_v345) (Cert.KernelIdeal.Around.V m c Cert.KernelIdeal.main_arg5) := by
  show after (Cert.ReferenceIdeal.Lines.ops (F := F)) (launchContents m' c) (Proc.devRef .tc Cert.ReferenceIdeal.main_v346)
      = Host.dotGeneral (F := F) (φ₁ := .f32) (φ₂ := .f32) Cert.ReferenceIdeal.dot_S144x500000_S27x144_S500000x27_0_1_1_0_n_n none (after (Cert.KernelIdeal.Around.before (F := F)).flatten (fun b => m (c, b)) (Proc.devRef .tc Cert.KernelIdeal.main_v345))
          (after (Cert.KernelIdeal.Around.before (F := F)).flatten (fun b => m (c, b)) (Proc.devRef .tc Cert.KernelIdeal.main_arg5))
  rw [ref_nest, kernel_nest]
  obtain ⟨⟨-, -, -, -, -, h5⟩, -, hx⟩ := chain (fun b => m (c, b)) (launchContents m' c) h
  simp (disch := decide) only [after_cons, after_nil, binary_result', binary_result_ne', unary_result_ne', hx, h5]

end Cert.Agree

end
-- ==== Proof.lean ====
import proofs.«401645_j73761768342118_3_alg».proof.Defs
import proofs.«401645_j73761768342118_3_alg».proof.Proof.Gen.Kernel
import proofs.«401645_j73761768342118_3_alg».proof.Proof.Gen.KernelIdeal
import proofs.«401645_j73761768342118_3_alg».proof.Proof.Gen.ReferenceIdeal
import proofs.«401645_j73761768342118_3_alg».proof.Proof.Gen.Pre_finite_inputs
import proofs.«401645_j73761768342118_3_alg».proof.Proof.KernelFrame
import proofs.«401645_j73761768342118_3_alg».proof.Proof.KernelIdealValue
import proofs.«401645_j73761768342118_3_alg».proof.Proof.RefRun
import proofs.«401645_j73761768342118_3_alg».proof.Proof.LockChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Around.frame m ρ

theorem frame_kernelIdeal : Cert.frame_KernelIdeal := fun m ρ _ => Cert.KernelIdeal.Around.frame m ρ

theorem frame_referenceIdeal : Cert.frame_ReferenceIdeal := fun m ρ _ => Cert.ReferenceIdeal.Lines.frame m ρ

theorem preserves : Cert.preserves_Kernel_KernelIdeal := trivial

/-- Entry (n, d) is ∑ₖ W[d, k] · X[k, n] for the kernel program and ∑ₖ X[k, n] · W[d, k] for the reference, X the feature array the shared host lines leave: equal, multiplication of extended reals being commutative. -/
theorem algebraic : Cert.algebraic_KernelIdeal_ReferenceIdeal := by
  intro m ρ m' ρ' _ hagree
  refine ⟨fun c => Cert.KernelIdeal.Around.V m c Cert.KernelIdeal.main_v187,
    fun c => Host.dotGeneral (F := Ideal) (φ₁ := .f32) (φ₂ := .f32) Cert.ReferenceIdeal.dot_S144x500000_S27x144_S500000x27_0_1_1_0_n_n none (Cert.KernelIdeal.Around.V m c Cert.KernelIdeal.main_v345) (Cert.KernelIdeal.Around.V m c Cert.KernelIdeal.main_arg5),
    Cert.KernelIdeal.Around.run_values m ρ, ?_⟩
  refine (θ_run Cert.ReferenceIdeal.defs _ _).mono (fun _ h c =>
    ⟨(h c Cert.ReferenceIdeal.main_v187).trans (Cert.Agree.sigma_agree m m' c (hagree c)),
     (h c Cert.ReferenceIdeal.main_v346).trans (Cert.Agree.feat_agree m m' c (hagree c)),
     (h c Cert.ReferenceIdeal.main_arg0).trans (Cert.ReferenceIdeal.Lines.after_early _ Cert.ReferenceIdeal.main_arg0 (by decide)),
     (h c Cert.ReferenceIdeal.main_arg1).trans (Cert.ReferenceIdeal.Lines.after_early _ Cert.ReferenceIdeal.main_arg1 (by decide)),
     (h c Cert.ReferenceIdeal.main_arg2).trans (Cert.ReferenceIdeal.Lines.after_early _ Cert.ReferenceIdeal.main_arg2 (by decide)),
     (h c Cert.ReferenceIdeal.main_arg3).trans (Cert.ReferenceIdeal.Lines.after_early _ Cert.ReferenceIdeal.main_arg3 (by decide)),
     (h c Cert.ReferenceIdeal.main_arg4).trans (Cert.ReferenceIdeal.Lines.after_early _ Cert.ReferenceIdeal.main_arg4 (by decide)),
     (h c Cert.ReferenceIdeal.main_arg5).trans (Cert.ReferenceIdeal.Lines.after_early _ Cert.ReferenceIdeal.main_arg5 (by decide))⟩)
    (Cert.ReferenceIdeal.Lines.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
